-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S64x16 : Shape := ⟨2, ![64, 16]⟩
abbrev S64 : Shape := ⟨1, ![64]⟩
abbrev S128x64 : Shape := ⟨2, ![128, 64]⟩
abbrev S128 : Shape := ⟨1, ![128]⟩
abbrev S128x128 : Shape := ⟨2, ![128, 128]⟩
abbrev S128x16 : Shape := ⟨2, ![128, 16]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S1x128 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x16 .f32) (main_arg11 : FVec F S128 .f32) (main_arg12 : FVec F S128x128 .f32) (main_arg13 : FVec F S128 .f32) (main_arg14 : FVec F S128x128 .f32) (main_arg15 : FVec F S128 .f32) (main_arg16 : FVec F S1x128 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg10
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x64 .f32) (main_arg7 : FVec F S128 .f32) (main_arg8 : FVec F S128x128 .f32) (main_arg9 : FVec F S128 .f32) (main_arg10 : FVec F S128x16 .f32) (main_arg11 : FVec F S128 .f32) (main_arg12 : FVec F S128x128 .f32) (main_arg13 : FVec F S128 .f32) (main_arg14 : FVec F S128x128 .f32) (main_arg15 : FVec F S128 .f32) (main_arg16 : FVec F S1x128 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S1600000x16 .f32) (main_arg3 : IVec S100000 32) (main_arg4 : FVec F S64x16 .f32) (main_arg5 : FVec F S64 .f32) (main_arg6 : FVec F S128x64 .f32) (main_arg7 : FVec F S128 .f32) (main_arg8 : FVec F S128x128 .f32) (main_arg9 : FVec F S128 .f32) (main_arg10 : FVec F S128x16 .f32) (main_arg11 : FVec F S128 .f32) (main_arg12 : FVec F S128x128 .f32) (main_arg13 : FVec F S128 .f32) (main_arg14 : FVec F S128x128 .f32) (main_arg15 : FVec F S128 .f32) (main_arg16 : FVec F S1x128 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x16 .f32 := Host.absf main_arg4
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S64x16 : Shape := ⟨2, ![64, 16]⟩
abbrev S64 : Shape := ⟨1, ![64]⟩
abbrev S128x64 : Shape := ⟨2, ![128, 64]⟩
abbrev S128 : Shape := ⟨1, ![128]⟩
abbrev S128x128 : Shape := ⟨2, ![128, 128]⟩
abbrev S128x16 : Shape := ⟨2, ![128, 16]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S16x64 : Shape := ⟨2, ![16, 64]⟩
abbrev S1x64 : Shape := ⟨2, ![1, 64]⟩
abbrev S10000x64 : Shape := ⟨2, ![10000, 64]⟩
abbrev S10000x16 : Shape := ⟨2, ![10000, 16]⟩
abbrev S64x128 : Shape := ⟨2, ![64, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S16x128 : Shape := ⟨2, ![16, 128]⟩
abbrev S10000x128 : Shape := ⟨2, ![10000, 128]⟩
abbrev S100000x1 : Shape := ⟨2, ![100000, 1]⟩
abbrev S128x1 : Shape := ⟨2, ![128, 1]⟩
abbrev S1x1 : Shape := ⟨2, ![1, 1]⟩
abbrev S256x1 : Shape := ⟨2, ![256, 1]⟩
abbrev S2000x128 : Shape := ⟨2, ![2000, 128]⟩
abbrev S2000x1 : Shape := ⟨2, ![2000, 1]⟩
abbrev S256x128 : Shape := ⟨2, ![256, 128]⟩
abbrev S2000x256 : Shape := ⟨2, ![2000, 256]⟩

abbrev nBuf : Space → Nat
  | .hbm => 72
  | .vmem => 45
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S64x16, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x128, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000x64, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .bf16⟩
  | .hbm, ⟨32, _⟩ => ⟨S16x64, .f32⟩
  | .hbm, ⟨33, _⟩ => ⟨S1x64, .f32⟩
  | .hbm, ⟨34, _⟩ => ⟨S1600000x64, .bf16⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S64x128, .f32⟩
  | .hbm, ⟨41, _⟩ => ⟨S1x128, .f32⟩
  | .hbm, ⟨42, _⟩ => ⟨S128x128, .f32⟩
  | .hbm, ⟨43, _⟩ => ⟨S1x128, .f32⟩
  | .hbm, ⟨44, _⟩ => ⟨S100000x128, .f32⟩
  | .hbm, ⟨45, _⟩ => ⟨S100000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S16x128, .f32⟩
  | .hbm, ⟨56, _⟩ => ⟨S1x128, .f32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S128x128, .f32⟩
  | .hbm, ⟨64, _⟩ => ⟨S1x128, .f32⟩
  | .hbm, ⟨65, _⟩ => ⟨S128x128, .f32⟩
  | .hbm, ⟨66, _⟩ => ⟨S1x128, .f32⟩
  | .hbm, ⟨67, _⟩ => ⟨S100000x128, .f32⟩
  | .hbm, ⟨68, _⟩ => ⟨S100000x1, .i32⟩
  | .hbm, ⟨69, _⟩ => ⟨S128x1, .f32⟩
  | .hbm, ⟨70, _⟩ => ⟨S1x1, .f32⟩
  | .hbm, ⟨71, _⟩ => ⟨S256x1, .f32⟩
  | .local _ .vmem, ⟨0, _⟩ => ⟨S10000x64, .bf16⟩
  | .local _ .vmem, ⟨1, _⟩ => ⟨S10000x64, .bf16⟩
  | .local _ .vmem, ⟨2, _⟩ => ⟨S10000x16, .f32⟩
  | .local _ .vmem, ⟨3, _⟩ => ⟨S10000x16, .f32⟩
  | .local _ .vmem, ⟨4, _⟩ => ⟨S16x64, .f32⟩
  | .local _ .vmem, ⟨5, _⟩ => ⟨S1x64, .f32⟩
  | .local _ .vmem, ⟨6, _⟩ => ⟨S10000x64, .bf16⟩
  | .local _ .vmem, ⟨7, _⟩ => ⟨S10000x64, .bf16⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x128, .bf16⟩
  | .local _ .vmem, ⟨19, _⟩ => ⟨S10000x128, .bf16⟩
  | .local _ .vmem, ⟨20, _⟩ => ⟨S10000x16, .f32⟩
  | .local _ .vmem, ⟨21, _⟩ => ⟨S10000x16, .f32⟩
  | .local _ .vmem, ⟨22, _⟩ => ⟨S16x128, .f32⟩
  | .local _ .vmem, ⟨23, _⟩ => ⟨S1x128, .f32⟩
  | .local _ .vmem, ⟨24, _⟩ => ⟨S10000x128, .bf16⟩
  | .local _ .vmem, ⟨25, _⟩ => ⟨S10000x128, .bf16⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .i32⟩
  | .local _ .vmem, ⟨39, _⟩ => ⟨S2000x1, .i32⟩
  | .local _ .vmem, ⟨40, _⟩ => ⟨S128x1, .f32⟩
  | .local _ .vmem, ⟨41, _⟩ => ⟨S1x1, .f32⟩
  | .local _ .vmem, ⟨42, _⟩ => ⟨S256x1, .f32⟩
  | .local _ .vmem, ⟨43, _⟩ => ⟨S256x128, .f32⟩
  | .local _ .vmem, ⟨44, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_scratch0 : Ref sig .tc := ⟨.vmem, 43, rfl⟩
abbrev cc4_scratch1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x16_S16x64_1_0 : S64x16.Transposes [1, 0] S16x64
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  transposes_S128x128_S128x128_1_0 : S128x128.Transposes [1, 0] S128x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  transposes_S128x16_S16x128_1_0 : S128x16.Transposes [1, 0] S16x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S100000x128 : S_.BroadcastsInDim S100000x128 (![] : Fin 0 → Fin S100000x128.rank)
  shapeCasts_S5000x128_S5000x128 : S5000x128.ShapeCasts S5000x128
  shapeCasts_S100000_S100000x1 : S100000.ShapeCasts S100000x1
  transposes_S1x128_S128x1_1_0 : S1x128.Transposes [1, 0] S128x1
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  broadcasts_S256x1_S256x128 : S256x1.Broadcasts S256x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  gather_S100000x64_S1600000x1_S1600000x64_1_0_n_n_0_1_164_wf : GatherDims.WF S100000x64 S1600000x1 S1600000x64 [1] [0] [] [0] [] 1 ![1, 64]
  dot_S10000x16_S16x64_S10000x64_1_0_0_1_n_n_wf : DotDims.WF S10000x16 S16x64 S10000x64 [1] [0] [0] [1] [] []
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  dot_S10000x16_S16x128_S10000x128_1_0_0_1_n_n_wf : DotDims.WF S10000x16 S16x128 S10000x128 [1] [0] [0] [1] [] []
  scatter_S100000x128_S1600000x1_S1600000x128_1_0_0_1_wf : ScatterDims.WF S100000x128 S1600000x1 S1600000x128 [1] [0] [0] 1
  dot_S2000x256_S2000x128_S256x128_0_0_1_1_n_n_wf : DotDims.WF S2000x256 S2000x128 S256x128 [0] [0] [1] [1] [] []
  dot_S2000x256_S2000x1_S256x1_0_0_1_1_n_n_wf : DotDims.WF S2000x256 S2000x1 S256x1 [0] [0] [1] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .bf16 = 32 ∨ (Rect.block (s := S1600000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1600000x16.size a
  hwx0_1 : ∀ i : grid0.Coords, EltTy.bits .f32 = 32 ∨ (Rect.block (s := S1600000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S1600000x64.size a
  hwx0_4 : ∀ i : grid0.Coords, EltTy.bits .bf16 = 32 ∨ (Rect.block (s := S1600000x64) S10000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .bf16 = 32 ∨ (Rect.block (s := S1600000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S1600000x16.size a
  hwx2_1 : ∀ i : grid2.Coords, EltTy.bits .f32 = 32 ∨ (Rect.block (s := S1600000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S1600000x128.size a
  hwx2_4 : ∀ i : grid2.Coords, EltTy.bits .bf16 = 32 ∨ (Rect.block (s := S1600000x128) S10000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x1.size a ≤ S256x1.size a
  hwx4_4 : ∀ i : grid4.Coords, EltTy.bits .f32 = 32 ∨ (Rect.block (s := S256x1) S256x1.size (cc4_transform_4 i) (hinb4_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v11) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v43) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S256x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S64x16 : Shape := ⟨2, ![64, 16]⟩
abbrev S64 : Shape := ⟨1, ![64]⟩
abbrev S128x64 : Shape := ⟨2, ![128, 64]⟩
abbrev S128 : Shape := ⟨1, ![128]⟩
abbrev S128x128 : Shape := ⟨2, ![128, 128]⟩
abbrev S128x16 : Shape := ⟨2, ![128, 16]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S16x64 : Shape := ⟨2, ![16, 64]⟩
abbrev S1x64 : Shape := ⟨2, ![1, 64]⟩
abbrev S64x128 : Shape := ⟨2, ![64, 128]⟩
abbrev S100000x128 : Shape := ⟨2, ![100000, 128]⟩
abbrev S1600000x128 : Shape := ⟨2, ![1600000, 128]⟩
abbrev S16x128 : Shape := ⟨2, ![16, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S128x1 : Shape := ⟨2, ![128, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S64x16, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x128, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S16x64, .f32⟩
  | .hbm, ⟨32, _⟩ => ⟨S1600000x64, .f32⟩
  | .hbm, ⟨33, _⟩ => ⟨S1600000x64, .f32⟩
  | .hbm, ⟨34, _⟩ => ⟨S1x64, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S64x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S128x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S16x128, .f32⟩
  | .hbm, ⟨71, _⟩ => ⟨S1600000x128, .f32⟩
  | .hbm, ⟨72, _⟩ => ⟨S1600000x128, .f32⟩
  | .hbm, ⟨73, _⟩ => ⟨S1x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S128x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S256x128, .f32⟩
  | .hbm, ⟨102, _⟩ => ⟨S100000x1, .i32⟩
  | .hbm, ⟨103, _⟩ => ⟨S256x128, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S256, .f32⟩
  | .hbm, ⟨108, _⟩ => ⟨S100000x1, .i32⟩
  | .hbm, ⟨109, _⟩ => ⟨S256, .f32⟩
  | .hbm, ⟨110, _⟩ => ⟨S_, .f32⟩
  | .hbm, ⟨111, _⟩ => ⟨S256, .f32⟩
  | .hbm, ⟨112, _⟩ => ⟨S256, .f32⟩
  | .hbm, ⟨113, _⟩ => ⟨S256x1, .f32⟩
  | .hbm, ⟨114, _⟩ => ⟨S256x128, .f32⟩
  | .hbm, ⟨115, _⟩ => ⟨S256x128, .f32⟩
  | .hbm, ⟨116, _⟩ => ⟨S128x1, .f32⟩
  | .hbm, ⟨117, _⟩ => ⟨S256x1, .f32⟩
  | .hbm, ⟨118, _⟩ => ⟨S1x1, .f32⟩
  | .hbm, ⟨119, _⟩ => ⟨S256x1, .f32⟩
  | .hbm, ⟨120, _⟩ => ⟨S256x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call0_cst : Ref sig .tc := ⟨.hbm, 37, rfl⟩
abbrev main_call0_v0 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_cst : Ref sig .tc := ⟨.hbm, 50, rfl⟩
abbrev main_call1_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_c_1 : Ref sig .tc := ⟨.hbm, 61, rfl⟩
abbrev main_v34 : Ref sig .tc := ⟨.hbm, 62, rfl⟩
abbrev main_v35 : Ref sig .tc := ⟨.hbm, 63, rfl⟩
abbrev main_c_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call3_cst : Ref sig .tc := ⟨.hbm, 76, rfl⟩
abbrev main_call3_v0 : Ref sig .tc := ⟨.hbm, 77, rfl⟩
abbrev main_v47 : Ref sig .tc := ⟨.hbm, 78, rfl⟩
abbrev main_cst_3 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call4_cst : Ref sig .tc := ⟨.hbm, 89, rfl⟩
abbrev main_call4_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call5_cst : Ref sig .tc := ⟨.hbm, 97, rfl⟩
abbrev main_call5_v0 : Ref sig .tc := ⟨.hbm, 98, rfl⟩
abbrev main_v63 : Ref sig .tc := ⟨.hbm, 99, rfl⟩
abbrev main_cst_4 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_5 : Ref sig .tc := ⟨.hbm, 104, rfl⟩
abbrev main_v67 : Ref sig .tc := ⟨.hbm, 105, rfl⟩
abbrev main_cst_6 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_7 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x16_S16x64_1_0 : S64x16.Transposes [1, 0] S16x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S128x16_S16x128_1_0 : S128x16.Transposes [1, 0] S16x128
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  transposes_S1x128_S128x1_1_0 : S1x128.Transposes [1, 0] S128x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  dot_S1600000x16_S16x64_S1600000x64_1_0_0_1_n_n_wf : DotDims.WF S1600000x16 S16x64 S1600000x64 [1] [0] [0] [1] [] []
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x16_S16x128_S1600000x128_1_0_0_1_n_n_wf : DotDims.WF S1600000x16 S16x128 S1600000x128 [1] [0] [0] [1] [] []
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.K.R0.lean ====
import proofs.«419359_j12352325943372_2_alg».proof.Proof.Gen.Kernel.Launch
import proofs.«419359_j12352325943372_2_alg».proof.Proof.Gen.Kernel.Skeleton
import proofs.«419359_j12352325943372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x64 := Rect.unit (s := S10000x64) ![0, 0] S10000x64.size inb_S10000x64_S10000x64_0_0
abbrev r0_e : Rect S10000x16 := Rect.unit (s := S10000x16) ![0, 0] S10000x16.size inb_S10000x16_S10000x16_0_0
abbrev r0_p : Rect S16x64 := Rect.unit (s := S16x64) ![0, 0] S16x64.size inb_S16x64_S16x64_0_0
abbrev r0_b : Rect S1x64 := Rect.unit (s := S1x64) ![0, 0] S1x64.size inb_S1x64_S1x64_0_0

def out0_4 (x0 : Vec F S10000x64 .bf16) (x1 : Vec F S10000x16 .f32) (x2 : Vec F S16x64 .f32) (x3 : Vec F S1x64 .f32) : Vec F S10000x64 .bf16 :=
  View.canon [⟨r0_x, k0_pay1 (View.ld x1 r0_e) (View.ld x2 r0_p) (View.ld x0 r0_x) (View.ld x3 r0_b)⟩]

theorem cover0_4 (p0 : Vec F S10000x64 .bf16) (y : S10000x64.Idx) :
    ∃ pc ∈ ([⟨r0_x, p0⟩] : List (View.Piece (Elt F) S10000x64 .bf16)), y ∈ pc.1.set :=
  View.cover_of_tiled [⟨r0_x, p0⟩] S10000x64.size (by rfl) y

set_option maxHeartbeats 4000000 in

theorem sound_kernel0 (c : Dev nD) (E : Set ℕ) (i : grid0.Coords)
    (arg1 : Memref sig .tc .vmem S10000x64 .bf16) (harg1 : arg1.IsWhole) (arg2 : Memref sig .tc .vmem S10000x16 .f32) (harg2 : arg2.IsWhole)
    (arg3 : Memref sig .tc .vmem S16x64 .f32) (harg3 : arg3.IsWhole) (arg4 : Memref sig .tc .vmem S1x64 .f32) (harg4 : arg4.IsWhole)
    (arg5 : Memref sig .tc .vmem S10000x64 .bf16) (harg5 : arg5.IsWhole)
    (x0 : Vec F S10000x64 .bf16) (x1 : Vec F S10000x16 .f32) (x2 : Vec F S16x64 .f32) (x3 : Vec F S1x64 .f32) (K : PUnit → sProp 𝕄) :
    iprop(owns c.tc arg1 fullShare x0 ∗ owns c.tc arg2 fullShare x1
        ∗ owns c.tc arg3 fullShare x2 ∗ owns c.tc arg4 fullShare x3
        ∗ (∃ d, owns c.tc arg5 fullShare d)
        ∗ (iprop(owns c.tc arg1 fullShare x0 ∗ owns c.tc arg2 fullShare x1
            ∗ owns c.tc arg3 fullShare x2 ∗ owns c.tc arg4 fullShare x3
            ∗ owns c.tc arg5 fullShare (out0_4 x0 x1 x2 x3)) -∗ K ⟨⟩))
      ⊢ wp frame (wpE (defs₀ (F := F)) Variants.none c none) E (cc0__edge_msg_kernel i arg1 harg1 arg2 harg2 arg3 harg3 arg4 harg4 arg5 harg5) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns c.tc (st0_0 t) fullShare ((dat0 V c).before 0 t d))
    ∗ (∃ d, owns c.tc (st0_1 t) fullShare ((dat0 V c).before 1 t d))
    ∗ (∃ d, owns c.tc (st0_2 t) fullShare ((dat0 V c).before 2 t d))
    ∗ (∃ d, owns c.tc (st0_3 t) fullShare ((dat0 V c).before 3 t d))
    ∗ (∃ d, owns c.tc (st0_4 t) fullShare ((dat0 V c).before 4 t d)))

def bodyPost0 (c : Dev nD) (t : Fin cfg0.N) : sProp 𝕄 :=
  iprop((dat0 V c).Φ t.succ ∗ (dat0 V c).owesAt () t.succ
    ∗ owns c.tc (st0_0 t) fullShare ((dat0 V c).after 0 t)
    ∗ owns c.tc (st0_1 t) fullShare ((dat0 V c).after 1 t)
    ∗ owns c.tc (st0_2 t) fullShare ((dat0 V c).after 2 t)
    ∗ owns c.tc (st0_3 t) fullShare ((dat0 V c).after 3 t)
    ∗ owns c.tc (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  iframe H0 H1 H2 H3
  isplitl [H4]; · iexists _; iexact H4
  iintro ⟨H0, H1, H2, H3, H4⟩
  iframe

theorem body_obligation0 (c : Dev nD) : BodyObligation (dat0 (F := F) V c) (defs₀ (F := F)) Variants.none () Set.univ := fun t => by
  rw [bigSep_W0, bigSep_W0]
  exact sound_body0 V c t

end

end Cert.Kernel.Frame

end
-- ==== Proof.K.R1.lean ====
import proofs.«419359_j12352325943372_2_alg».proof.Proof.Gen.Kernel.Launch
import proofs.«419359_j12352325943372_2_alg».proof.Proof.Gen.Kernel.Skeleton
import proofs.«419359_j12352325943372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Frame
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64x128 := Rect.unit (s := S64x128) ![0, 0] S64x128.size inb_S64x128_S64x128_0_0
abbrev r1_3 : Rect S1x128 := Rect.unit (s := S1x128) ![0, 0] S1x128.size inb_S1x128_S1x128_0_0
abbrev r1_4 : Rect S128x128 := Rect.unit (s := S128x128) ![0, 0] S128x128.size inb_S128x128_S128x128_0_0
abbrev r1_5 : Rect S1x128 := Rect.unit (s := S1x128) ![0, 0] S1x128.size inb_S1x128_S1x128_0_0
abbrev r1_6 : Rect S5000x128 := Rect.unit (s := S5000x128) ![0, 0] S5000x128.size inb_S5000x128_S5000x128_0_0

def out1_6 (x0 : Vec F S5000x64 .f32) (x1 : Vec F S5000x64 .f32) (x2 : Vec F S64x128 .f32) (x3 : Vec F S1x128 .f32) (x4 : Vec F S128x128 .f32) (x5 : Vec F S1x128 .f32) : Vec F S5000x128 .f32 :=
  View.canon [⟨r1_6, k1_pay1 (View.ld x0 r1_0) (View.ld x1 r1_1) (View.ld x2 r1_2) (View.ld x3 r1_3) (View.ld x4 r1_4) (View.ld x5 r1_5)⟩]

theorem cover1_6 (p0 : Vec F S5000x128 .f32) (y : S5000x128.Idx) :
    ∃ pc ∈ ([⟨r1_6, p0⟩] : List (View.Piece (Elt F) S5000x128 .f32)), y ∈ pc.1.set :=
  View.cover_of_tiled [⟨r1_6, p0⟩] S5000x128.size (by rfl) y

set_option maxHeartbeats 4000000 in

theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x64 .f32) (x1 : Vec F S5000x64 .f32) (x2 : Vec F S64x128 .f32) (x3 : Vec F S1x128 .f32) (x4 : Vec F S128x128 .f32) (x5 : Vec F S1x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (out1_6 x0 x1 x2 x3 x4 x5)) -∗ K ⟨⟩))
      ⊢ wp frame (wpE (defs₀ (F := F)) Variants.none c none) E (cc1__node_update_kernel i arg1 harg1 arg2 harg2 arg3 harg3 arg4 harg4 arg5 harg5 arg6 harg6 arg7 harg7) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns c.tc (st1_0 t) fullShare ((dat1 V c).before 0 t d))
    ∗ (∃ d, owns c.tc (st1_1 t) fullShare ((dat1 V c).before 1 t d))
    ∗ (∃ d, owns c.tc (st1_2 t) fullShare ((dat1 V c).before 2 t d))
    ∗ (∃ d, owns c.tc (st1_3 t) fullShare ((dat1 V c).before 3 t d))
    ∗ (∃ d, owns c.tc (st1_4 t) fullShare ((dat1 V c).before 4 t d))
    ∗ (∃ d, owns c.tc (st1_5 t) fullShare ((dat1 V c).before 5 t d))
    ∗ (∃ d, owns c.tc (st1_6 t) fullShare ((dat1 V c).before 6 t d)))

def bodyPost1 (c : Dev nD) (t : Fin cfg1.N) : sProp 𝕄 :=
  iprop((dat1 V c).Φ t.succ ∗ (dat1 V c).owesAt () t.succ
    ∗ owns c.tc (st1_0 t) fullShare ((dat1 V c).after 0 t)
    ∗ owns c.tc (st1_1 t) fullShare ((dat1 V c).after 1 t)
    ∗ owns c.tc (st1_2 t) fullShare ((dat1 V c).after 2 t)
    ∗ owns c.tc (st1_3 t) fullShare ((dat1 V c).after 3 t)
    ∗ owns c.tc (st1_4 t) fullShare ((dat1 V c).after 4 t)
    ∗ owns c.tc (st1_5 t) fullShare ((dat1 V c).after 5 t)
    ∗ owns c.tc (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t
end
end Cert.Kernel.Frame
end
-- ==== Proof.K.R2.lean ====
import proofs.«419359_j12352325943372_2_alg».proof.Proof.Gen.Kernel.Launch
import proofs.«419359_j12352325943372_2_alg».proof.Proof.Gen.Kernel.Skeleton
import proofs.«419359_j12352325943372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x128 := Rect.unit (s := S10000x128) ![0, 0] S10000x128.size inb_S10000x128_S10000x128_0_0
abbrev r2_e : Rect S10000x16 := Rect.unit (s := S10000x16) ![0, 0] S10000x16.size inb_S10000x16_S10000x16_0_0
abbrev r2_p : Rect S16x128 := Rect.unit (s := S16x128) ![0, 0] S16x128.size inb_S16x128_S16x128_0_0
abbrev r2_b : Rect S1x128 := Rect.unit (s := S1x128) ![0, 0] S1x128.size inb_S1x128_S1x128_0_0

def out2_4 (x0 : Vec F S10000x128 .bf16) (x1 : Vec F S10000x16 .f32) (x2 : Vec F S16x128 .f32) (x3 : Vec F S1x128 .f32) : Vec F S10000x128 .bf16 :=
  View.canon [⟨r2_x, k2_pay1 (View.ld x1 r2_e) (View.ld x2 r2_p) (View.ld x0 r2_x) (View.ld x3 r2_b)⟩]

theorem cover2_4 (p0 : Vec F S10000x128 .bf16) (y : S10000x128.Idx) :
    ∃ pc ∈ ([⟨r2_x, p0⟩] : List (View.Piece (Elt F) S10000x128 .bf16)), y ∈ pc.1.set :=
  View.cover_of_tiled [⟨r2_x, p0⟩] S10000x128.size (by rfl) y

set_option maxHeartbeats 4000000 in

theorem sound_kernel2 (c : Dev nD) (E : Set ℕ) (i : grid2.Coords)
    (arg1 : Memref sig .tc .vmem S10000x128 .bf16) (harg1 : arg1.IsWhole) (arg2 : Memref sig .tc .vmem S10000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S10000x128 .bf16) (harg5 : arg5.IsWhole)
    (x0 : Vec F S10000x128 .bf16) (x1 : Vec F S10000x16 .f32) (x2 : Vec F S16x128 .f32) (x3 : Vec F S1x128 .f32) (K : PUnit → sProp 𝕄) :
    iprop(owns c.tc arg1 fullShare x0 ∗ owns c.tc arg2 fullShare x1
        ∗ owns c.tc arg3 fullShare x2 ∗ owns c.tc arg4 fullShare x3
        ∗ (∃ d, owns c.tc arg5 fullShare d)
        ∗ (iprop(owns c.tc arg1 fullShare x0 ∗ owns c.tc arg2 fullShare x1
            ∗ owns c.tc arg3 fullShare x2 ∗ owns c.tc arg4 fullShare x3
            ∗ owns c.tc arg5 fullShare (out2_4 x0 x1 x2 x3)) -∗ K ⟨⟩))
      ⊢ wp frame (wpE (defs₀ (F := F)) Variants.none c none) E (cc2__edge_msg_kernel i arg1 harg1 arg2 harg2 arg3 harg3 arg4 harg4 arg5 harg5) K := by
  simp only [cc2__edge_msg_kernel_eq_skeleton]; unfold cc2__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns c.tc (st2_0 t) fullShare ((dat2 V c).before 0 t d))
    ∗ (∃ d, owns c.tc (st2_1 t) fullShare ((dat2 V c).before 1 t d))
    ∗ (∃ d, owns c.tc (st2_2 t) fullShare ((dat2 V c).before 2 t d))
    ∗ (∃ d, owns c.tc (st2_3 t) fullShare ((dat2 V c).before 3 t d))
    ∗ (∃ d, owns c.tc (st2_4 t) fullShare ((dat2 V c).before 4 t d)))

def bodyPost2 (c : Dev nD) (t : Fin cfg2.N) : sProp 𝕄 :=
  iprop((dat2 V c).Φ t.succ ∗ (dat2 V c).owesAt () t.succ
    ∗ owns c.tc (st2_0 t) fullShare ((dat2 V c).after 0 t)
    ∗ owns c.tc (st2_1 t) fullShare ((dat2 V c).after 1 t)
    ∗ owns c.tc (st2_2 t) fullShare ((dat2 V c).after 2 t)
    ∗ owns c.tc (st2_3 t) fullShare ((dat2 V c).after 3 t)
    ∗ owns c.tc (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  iframe H0 H1 H2 H3
  isplitl [H4]; · iexists _; iexact H4
  iintro ⟨H0, H1, H2, H3, H4⟩
  iframe

theorem body_obligation2 (c : Dev nD) : BodyObligation (dat2 (F := F) V c) (defs₀ (F := F)) Variants.none () Set.univ := fun t => by
  rw [bigSep_W2, bigSep_W2]
  exact sound_body2 V c t

end

end Cert.Kernel.Frame

end
-- ==== Proof.K.R3.lean ====
import proofs.«419359_j12352325943372_2_alg».proof.Proof.Gen.Kernel.Launch
import proofs.«419359_j12352325943372_2_alg».proof.Proof.Gen.Kernel.Skeleton
import proofs.«419359_j12352325943372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Frame
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x128 := Rect.unit (s := S5000x128) ![0, 0] S5000x128.size inb_S5000x128_S5000x128_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0
abbrev r3_4 : Rect S128x128 := Rect.unit (s := S128x128) ![0, 0] S128x128.size inb_S128x128_S128x128_0_0
abbrev r3_5 : Rect S1x128 := Rect.unit (s := S1x128) ![0, 0] S1x128.size inb_S1x128_S1x128_0_0
abbrev r3_6 : Rect S5000x128 := Rect.unit (s := S5000x128) ![0, 0] S5000x128.size inb_S5000x128_S5000x128_0_0

def out3_6 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r3_6, k3_pay1 (View.ld x0 r3_0) (View.ld x1 r3_1) (View.ld x2 r3_2) (View.ld x3 r3_3) (View.ld x4 r3_4) (View.ld x5 r3_5)⟩]

theorem cover3_6 (p0 : Vec F S5000x128 .f32) (y : S5000x128.Idx) :
    ∃ pc ∈ ([⟨r3_6, p0⟩] : List (View.Piece (Elt F) S5000x128 .f32)), y ∈ pc.1.set :=
  View.cover_of_tiled [⟨r3_6, p0⟩] S5000x128.size (by rfl) y

set_option maxHeartbeats 4000000 in

theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (out3_6 x0 x1 x2 x3 x4 x5)) -∗ K ⟨⟩))
      ⊢ wp frame (wpE (defs₀ (F := F)) Variants.none c none) E (cc3__node_update_kernel i arg1 harg1 arg2 harg2 arg3 harg3 arg4 harg4 arg5 harg5 arg6 harg6 arg7 harg7) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns c.tc (st3_0 t) fullShare ((dat3 V c).before 0 t d))
    ∗ (∃ d, owns c.tc (st3_1 t) fullShare ((dat3 V c).before 1 t d))
    ∗ (∃ d, owns c.tc (st3_2 t) fullShare ((dat3 V c).before 2 t d))
    ∗ (∃ d, owns c.tc (st3_3 t) fullShare ((dat3 V c).before 3 t d))
    ∗ (∃ d, owns c.tc (st3_4 t) fullShare ((dat3 V c).before 4 t d))
    ∗ (∃ d, owns c.tc (st3_5 t) fullShare ((dat3 V c).before 5 t d))
    ∗ (∃ d, owns c.tc (st3_6 t) fullShare ((dat3 V c).before 6 t d)))

def bodyPost3 (c : Dev nD) (t : Fin cfg3.N) : sProp 𝕄 :=
  iprop((dat3 V c).Φ t.succ ∗ (dat3 V c).owesAt () t.succ
    ∗ owns c.tc (st3_0 t) fullShare ((dat3 V c).after 0 t)
    ∗ owns c.tc (st3_1 t) fullShare ((dat3 V c).after 1 t)
    ∗ owns c.tc (st3_2 t) fullShare ((dat3 V c).after 2 t)
    ∗ owns c.tc (st3_3 t) fullShare ((dat3 V c).after 3 t)
    ∗ owns c.tc (st3_4 t) fullShare ((dat3 V c).after 4 t)
    ∗ owns c.tc (st3_5 t) fullShare ((dat3 V c).after 5 t)
    ∗ owns c.tc (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t
end
end Cert.Kernel.Frame
end
-- ==== Proof.K.Vals.lean ====
import proofs.«419359_j12352325943372_2_alg».proof.Proof.K.R0
import proofs.«419359_j12352325943372_2_alg».proof.Proof.K.R1
import proofs.«419359_j12352325943372_2_alg».proof.Proof.K.R2
import proofs.«419359_j12352325943372_2_alg».proof.Proof.K.R3
import proofs.«419359_j12352325943372_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Arrays put back at the contents they were taken at change nothing. -/
theorem withArrays_same {gr Wn : ℕ} (win : Fin Wn → Pipeline.WinSpec sig gr) (hinj : Function.Injective (Pipeline.arrRef win)) (c : Dev nD)
    (V : Valuation τ sig (Elt F)) (A : (w : Fin Wn) → Buf (Elt F) ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases e : ∃ w, Pipeline.arrRef win w = b
  · obtain ⟨w, rfl⟩ := e
    exact (Pipeline.withArrays_arr win hinj c V A w).trans (h w rfl)
  · exact Pipeline.withArrays_of_ne win c V A b fun w hw => e ⟨w, hw⟩

/-- `r` is no output array of the pipeline `cfg`. -/
abbrev NotOut (cfg : Pipeline.Cfg sig Λ₀) (r : Ref sig .tc) : Prop := ∀ w, Pipeline.arrRef cfg.spec w = r → (cfg.win w).isOut = false

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_kept (c : Dev nD) (r : Ref sig .tc) (h : NotOut cfg0 r) :
    W2 m ρ c (Proc.devRef .tc r) = W1 m ρ c (Proc.devRef .tc r) := by
  unfold W2
  exact withArrays_same spec0 launch0.win.arr_inj c _ _ r fun w e => ((dat0 (E1 m ρ) c).arrAt_in w (h w e) _).trans (A_eq0 (E1 m ρ) c w)

abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_kept (c : Dev nD) (r : Ref sig .tc) (h : NotOut cfg1 r) :
    W4 m ρ c (Proc.devRef .tc r) = W3 m ρ c (Proc.devRef .tc r) := by
  unfold W4
  exact withArrays_same spec1 launch1.win.arr_inj c _ _ r fun w e => ((dat1 (E3 m ρ) c).arrAt_in w (h w e) _).trans (A_eq1 (E3 m ρ) c w)

abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_kept (c : Dev nD) (r : Ref sig .tc) (h : NotOut cfg2 r) :
    W6 m ρ c (Proc.devRef .tc r) = W5 m ρ c (Proc.devRef .tc r) := by
  unfold W6
  exact withArrays_same spec2 launch2.win.arr_inj c _ _ r fun w e => ((dat2 (E5 m ρ) c).arrAt_in w (h w e) _).trans (A_eq2 (E5 m ρ) c w)

abbrev W7 : Dev nD → Valuation τ sig (Elt F) := fun c => StableHlo.after hostOps3 (W6 m ρ c)
abbrev E7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_kept (c : Dev nD) (r : Ref sig .tc) (h : NotOut cfg3 r) :
    W8 m ρ c (Proc.devRef .tc r) = W7 m ρ c (Proc.devRef .tc r) := by
  unfold W8
  exact withArrays_same spec3 launch3.win.arr_inj c _ _ r fun w e => ((dat3 (E7 m ρ) c).arrAt_in w (h w e) _).trans (A_eq3 (E7 m ρ) c w)

abbrev W9 : Dev nD → Valuation τ sig (Elt F) := fun c => StableHlo.after hostOps4 (W8 m ρ c)
abbrev E9 : (c : Dev nD) → (b : Ref sig .tc) → Buf (Elt F) ((c : Thread nD τ).loc b) := fun c b => W9 m ρ c b
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- A buffer that no host stretch so far writes and that is no output array of a region so far holds its launch contents. -/
theorem W1_m (c : Dev nD) (r : Ref sig .tc) (h0 : r ∉ hostOps0_W) :
    W1 m ρ c (Proc.devRef .tc r) = m ((c : Thread nD τ).loc r) :=
  (W1_of m ρ c r h0).trans rfl
theorem W2_m (c : Dev nD) (r : Ref sig .tc) (h0 : r ∉ hostOps0_W) (a0 : NotOut cfg0 r) :
    W2 m ρ c (Proc.devRef .tc r) = m ((c : Thread nD τ).loc r) :=
  (W2_kept m ρ c r a0).trans (W1_m m ρ c r h0)
theorem W3_m (c : Dev nD) (r : Ref sig .tc) (h0 : r ∉ hostOps0_W) (a0 : NotOut cfg0 r) (h1 : r ∉ hostOps1_W) :
    W3 m ρ c (Proc.devRef .tc r) = m ((c : Thread nD τ).loc r) :=
  (W3_of m ρ c r h1).trans (W2_m m ρ c r h0 a0)
theorem W4_m (c : Dev nD) (r : Ref sig .tc) (h0 : r ∉ hostOps0_W) (a0 : NotOut cfg0 r) (h1 : r ∉ hostOps1_W) (a1 : NotOut cfg1 r) :
    W4 m ρ c (Proc.devRef .tc r) = m ((c : Thread nD τ).loc r) :=
  (W4_kept m ρ c r a1).trans (W3_m m ρ c r h0 a0 h1)
theorem W5_m (c : Dev nD) (r : Ref sig .tc) (h0 : r ∉ hostOps0_W) (a0 : NotOut cfg0 r) (h1 : r ∉ hostOps1_W) (a1 : NotOut cfg1 r) (h2 : r ∉ hostOps2_W) :
    W5 m ρ c (Proc.devRef .tc r) = m ((c : Thread nD τ).loc r) :=
  (W5_of m ρ c r h2).trans (W4_m m ρ c r h0 a0 h1 a1)
theorem W6_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) :
    W6 m ρ c (Proc.devRef .tc r) = m ((c : Thread nD τ).loc r) :=
  (W6_kept m ρ c r a2).trans (W5_m m ρ c r h0 a0 h1 a1 h2)
theorem W7_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) (h3 : r ∉ hostOps3_W) :
    W7 m ρ c (Proc.devRef .tc r) = m ((c : Thread nD τ).loc r) :=
  (W7_of m ρ c r h3).trans (W6_m m ρ c r h0 a0 h1 a1 h2 a2)
theorem W8_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) (h3 : r ∉ hostOps3_W) (a3 : NotOut cfg3 r) :
    W8 m ρ c (Proc.devRef .tc r) = m ((c : Thread nD τ).loc r) :=
  (W8_kept m ρ c r a3).trans (W7_m m ρ c r h0 a0 h1 a1 h2 a2 h3)
theorem W9_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) (h3 : r ∉ hostOps3_W) (a3 : NotOut cfg3 r) (h4 : r ∉ hostOps4_W) :
    W9 m ρ c (Proc.devRef .tc r) = m ((c : Thread nD τ).loc r) :=
  (W9_of m ρ c r h4).trans (W8_m m ρ c r h0 a0 h1 a1 h2 a2 h3 a3)

end Cert.Kernel.Frame

end
-- ==== Proof.K.R4.lean ====
import proofs.«419359_j12352325943372_2_alg».proof.Proof.Gen.Kernel.Launch
import proofs.«419359_j12352325943372_2_alg».proof.Proof.Gen.Kernel.Skeleton
import proofs.«419359_j12352325943372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Frame
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S256x128 .f32 × Vec F S256x1 .f32
  | 0, h => (k4_pay4 (iblk4 V c 0 ⟨0, h⟩) (iblk4 V c 1 ⟨0, h⟩) (k4_pay1 (F := F)), k4_pay5 (iblk4 V c 1 ⟨0, h⟩) (k4_pay2 (F := F)))
  | n + 1, h => (k4_pay4 (iblk4 V c 0 ⟨n + 1, h⟩) (iblk4 V c 1 ⟨n + 1, h⟩) (acc4 c n (Nat.lt_of_succ_lt h)).1, k4_pay5 (iblk4 V c 1 ⟨n + 1, h⟩) (acc4 c n (Nat.lt_of_succ_lt h)).2)

def out4_4 (c : Dev nD) (t : Fin cfg4.N) : Vec F S256x1 .f32 := k4_pay6 (acc4 V c t.val t.isLt).1 (acc4 V c t.val t.isLt).2 (iblk4 V c 2 t) (iblk4 V c 3 t)

abbrev scM4_0 : Memref sig .tc .vmem S256x128 .f32 := Memref.whole cc4_scratch0
abbrev scM4_1 : Memref sig .tc .vmem S256x1 .f32 := Memref.whole cc4_scratch1

theorem PhiA4_eq (c : Dev nD) :
    (Pipeline.ΦA spec4 c : sProp 𝕄)
      = iprop(iprop(iprop((∃ d, owns c.tc scM4_0 fullShare d) ∗ (∃ d, owns c.tc scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

def PhiS4 (c : Dev nD) : (n : ℕ) → n ≤ cfg4.N → sProp 𝕄
  | 0, _ => Pipeline.ΦA spec4 c
  | n + 1, hn => iprop(iprop(iprop(owns c.tc scM4_0 fullShare (acc4 V c n hn).1 ∗ owns c.tc scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns c.tc scM4_0 fullShare (acc4 V c n hn).1 ∗ owns c.tc scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns c.tc scM4_0 fullShare (acc4 V c (n - 1) (by omega)).1 ∗ owns c.tc scM4_1 fullShare (acc4 V c (n - 1) (by omega)).2)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 V c t := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 49 :=
  (by decide +kernel : ∀ t : Fin grid4.N, cond4_1 (grid4.coords t) ↔ t.val = 49)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

theorem idleAt4_4 : ∀ t : Fin cfg4.N, ¬cond4_1 (grid4.coords t) → cfg4.idle 4 (grid4.coords t) = true := by decide +kernel

theorem noFlush4_4 : ∀ t : Fin cfg4.N, ¬cond4_1 (grid4.coords t) → (cfg4.win 4).flush t = false := by decide +kernel

theorem liveAt4_4 : ∀ t : Fin cfg4.N, cond4_1 (grid4.coords t) → cfg4.idle 4 (grid4.coords t) = false := by decide +kernel

theorem hz2 : (![0, 0] : Fin 2 → Nat) = fun _ => 0 := funext fun a => by fin_cases a <;> rfl

section Runs
variable (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)

set_option maxHeartbeats 1000000 in

theorem run4_A (hc0 : cond4_0 i) (hc1 : ¬cond4_1 i)
    (x0 : Vec F S2000x128 .f32) (x1 : Vec F S2000x1 .i32) (x2 : Vec F S128x1 .f32) (x3 : Vec F S1x1 .f32) (x4 : Vec F S256x1 .f32)
    (E : Set ℕ) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ (∃ d, owns c.tc arg6 fullShare d) ∗ (∃ d, owns c.tc arg7 fullShare d)
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare (k4_pay4 x0 x1 (k4_pay1 (F := F))) ∗ owns c.tc arg7 fullShare (k4_pay5 x1 (k4_pay2 (F := F)))) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_words
    rw [View.read_writes_eq_canon _ _ _ (fun y => ⟨_, List.mem_cons_self, View.mem_set_unit_zero hz2 inb_S256x128_S256x128_0_0 y⟩), View.canon_cons_unit_zero (S := S256x128) hz2]
    simp only [View.readAt_eq_ld, harg1.read_unread, harg2.read_unread, View.readCov_unit_zero (S := S256x128) _ hz2, View.ld_unit_zero (S := S2000x128) hz2, View.ld_unit_zero (S := S2000x1) hz2]

  · iexists _; isplitr
    swap; · iexact HS1
    ipureintro
    sl_unfold_words
    rw [View.read_writes_eq_canon _ _ _ (fun y => ⟨_, List.mem_cons_self, View.mem_set_unit_zero hz2 inb_S256x1_S256x1_0_0 y⟩), View.canon_cons_unit_zero (S := S256x1) hz2]
    simp only [View.readAt_eq_ld, harg2.read_unread, View.readCov_unit_zero (S := S256x1) _ hz2, View.ld_unit_zero (S := S2000x1) hz2]

set_option maxHeartbeats 1000000 in

theorem run4_B (hc0 : ¬cond4_0 i) (hc1 : ¬cond4_1 i)
    (x0 : Vec F S2000x128 .f32) (x1 : Vec F S2000x1 .i32) (x2 : Vec F S128x1 .f32) (x3 : Vec F S1x1 .f32) (x4 : Vec F S256x1 .f32)
    (s0 : Vec F S256x128 .f32) (s1 : Vec F S256x1 .f32) (E : Set ℕ) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ owns c.tc arg6 fullShare s0 ∗ owns c.tc arg7 fullShare s1
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare (k4_pay4 x0 x1 s0) ∗ owns c.tc arg7 fullShare (k4_pay5 x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_words
    rw [View.read_writes_eq_canon _ _ _ (fun y => ⟨_, List.mem_singleton_self _, View.mem_set_unit_zero hz2 inb_S256x128_S256x128_0_0 y⟩), View.canon_unit_zero (S := S256x128) hz2]
    simp only [View.readAt_eq_ld, harg1.read_unread, harg2.read_unread, harg6.read_unread, View.ld_unit_zero (S := S256x128) hz2, View.ld_unit_zero (S := S2000x128) hz2, View.ld_unit_zero (S := S2000x1) hz2]
  · iexists _; isplitr
    swap; · iexact HS1
    ipureintro
    sl_unfold_words
    rw [View.read_writes_eq_canon _ _ _ (fun y => ⟨_, List.mem_singleton_self _, View.mem_set_unit_zero hz2 inb_S256x1_S256x1_0_0 y⟩), View.canon_unit_zero (S := S256x1) hz2]
    simp only [View.readAt_eq_ld, harg2.read_unread, harg7.read_unread, View.ld_unit_zero (S := S256x1) hz2, View.ld_unit_zero (S := S2000x1) hz2]

set_option maxHeartbeats 1000000 in

theorem run4_C (hc0 : ¬cond4_0 i) (hc1 : cond4_1 i)
    (x0 : Vec F S2000x128 .f32) (x1 : Vec F S2000x1 .i32) (x2 : Vec F S128x1 .f32) (x3 : Vec F S1x1 .f32)
    (s0 : Vec F S256x128 .f32) (s1 : Vec F S256x1 .f32) (E : Set ℕ) (K : PUnit → sProp 𝕄) :
    iprop(owns c.tc arg1 fullShare x0 ∗ owns c.tc arg2 fullShare x1 ∗ owns c.tc arg3 fullShare x2
        ∗ owns c.tc arg4 fullShare x3 ∗ (∃ d, owns c.tc arg5 fullShare d)
        ∗ owns c.tc arg6 fullShare s0 ∗ owns c.tc arg7 fullShare s1
        ∗ (iprop(owns c.tc arg1 fullShare x0 ∗ owns c.tc arg2 fullShare x1 ∗ owns c.tc arg3 fullShare x2
            ∗ owns c.tc arg4 fullShare x3 ∗ owns c.tc arg5 fullShare (k4_pay6 (k4_pay4 x0 x1 s0) (k4_pay5 x1 s1) x2 x3)
            ∗ owns c.tc arg6 fullShare (k4_pay4 x0 x1 s0) ∗ owns c.tc arg7 fullShare (k4_pay5 x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (fun y => ⟨_, List.mem_singleton_self _, View.mem_set_unit_zero hz2 inb_S256x1_S256x1_0_0 y⟩), View.canon_unit_zero (S := S256x1) hz2]

    simp only [View.readAt_eq_ld, harg1.read_unread, harg2.read_unread, harg3.read_unread, harg4.read_unread, harg6.read_unread, harg7.read_unread,
      View.readCov_unit_zero (S := S256x128) _ hz2, View.readCov_unit_zero (S := S256x1) _ hz2,
      View.ld_unit_zero (S := S256x128) hz2, View.ld_unit_zero (S := S256x1) hz2, View.ld_unit_zero (S := S2000x128) hz2, View.ld_unit_zero (S := S2000x1) hz2,
      View.ld_unit_zero (S := S128x1) hz2, View.ld_unit_zero (S := S1x1) hz2]
  isplitl [HS0]
  · iexists _; isplitr
    swap; · iexact HS0
    ipureintro
    sl_unfold_words
    rw [View.read_writes_eq_canon _ _ _ (fun y => ⟨_, List.mem_singleton_self _, View.mem_set_unit_zero hz2 inb_S256x128_S256x128_0_0 y⟩), View.canon_unit_zero (S := S256x128) hz2]
    simp only [View.readAt_eq_ld, harg1.read_unread, harg2.read_unread, harg6.read_unread, View.ld_unit_zero (S := S256x128) hz2, View.ld_unit_zero (S := S2000x128) hz2, View.ld_unit_zero (S := S2000x1) hz2]
  · iexists _; isplitr
    swap; · iexact HS1
    ipureintro
    sl_unfold_words
    rw [View.read_writes_eq_canon _ _ _ (fun y => ⟨_, List.mem_singleton_self _, View.mem_set_unit_zero hz2 inb_S256x1_S256x1_0_0 y⟩), View.canon_unit_zero (S := S256x1) hz2]
    simp only [View.readAt_eq_ld, harg2.read_unread, harg7.read_unread, View.ld_unit_zero (S := S256x1) hz2, View.ld_unit_zero (S := S2000x1) hz2]

end Runs

theorem acc4_first (c : Dev nD) (t : Fin cfg4.N) (h0 : t.val = 0) :
    acc4 V c t.val t.isLt = (k4_pay4 (iblk4 V c 0 t) (iblk4 V c 1 t) (k4_pay1 (F := F)), k4_pay5 (iblk4 V c 1 t) (k4_pay2 (F := F))) := by
  obtain ⟨n, hn⟩ := t
  cases n with
  | zero => rfl
  | succ n => exact absurd h0 (Nat.succ_ne_zero n)

theorem acc4_later (c : Dev nD) (t : Fin cfg4.N) (h0 : t.val ≠ 0) :
    acc4 V c t.val t.isLt = (k4_pay4 (iblk4 V c 0 t) (iblk4 V c 1 t) (acc4 V c (t.val - 1) (Nat.lt_of_le_of_lt (Nat.sub_le _ _) t.isLt)).1,
      k4_pay5 (iblk4 V c 1 t) (acc4 V c (t.val - 1) (Nat.lt_of_le_of_lt (Nat.sub_le _ _) t.isLt)).2) := by
  obtain ⟨n, hn⟩ := t
  cases n with
  | zero => exact absurd rfl h0
  | succ n => rfl

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x1 .f32 := win4_4.stage (cfg4.slots t 4)
abbrev hs4_4 (t : Fin cfg4.N) : (ms4_4 t).IsWhole := hstage4_4 ((cfg4.slots t 4).cast nbuf4_4)

def bodyPre4 (c : Dev nD) (t : Fin cfg4.N) : sProp 𝕄 :=
  iprop((dat4 V c).Φ t.castSucc ∗ (dat4 V c).owesAt () t.castSucc
    ∗ (∃ d, owns c.tc (ms4_0 t) fullShare ((dat4 V c).before 0 t d))
    ∗ (∃ d, owns c.tc (ms4_1 t) fullShare ((dat4 V c).before 1 t d))
    ∗ (∃ d, owns c.tc (ms4_2 t) fullShare ((dat4 V c).before 2 t d))
    ∗ (∃ d, owns c.tc (ms4_3 t) fullShare ((dat4 V c).before 3 t d))
    ∗ (∃ d, owns c.tc (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns c.tc (ms4_0 t) fullShare ((dat4 V c).after 0 t) from by
    unfold Dat.leavesExact; rw [liveAt4_0 t], after4_0]
  rw [show (dat4 V c).leavesExact 1 t = owns c.tc (ms4_1 t) fullShare ((dat4 V c).after 1 t) from by
    unfold Dat.leavesExact; rw [liveAt4_1 t], after4_1]
  rw [show (dat4 V c).leavesExact 2 t = owns c.tc (ms4_2 t) fullShare ((dat4 V c).after 2 t) from by
    unfold Dat.leavesExact; rw [liveAt4_2 t], after4_2]
  rw [show (dat4 V c).leavesExact 3 t = owns c.tc (ms4_3 t) fullShare ((dat4 V c).after 3 t) from by
    unfold Dat.leavesExact; rw [liveAt4_3 t], after4_3]
  by_cases h0 : t.val = 0
  · have h1 : ¬t.val = 49 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [acc4_first V c t h0]; dsimp only
    rw [PhiS4_castSucc V c t, PhiS4_zero V c _ _ h0, PhiA4_eq]
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩⟩
    iapply (run4_A c (grid4.coords t) _ _ _ _ _ _ _ _ _ _ _ _ _ _ hc0 hc1 (iblk4 V c 0 t) (iblk4 V c 1 t) (iblk4 V c 2 t) (iblk4 V c 3 t) _ Set.univ _)
    iframe H0 H1 H2 H3 H4
    isplitl [HS0]; · iexists _; iexact HS0
    isplitl [HS1]; · iexists _; iexact HS1
    iintro ⟨H0, H1, H2, H3, H4, HS0, HS1⟩
    iframe HS0 HS1 Hr Hg Ho H0 H1 H2 H3
    iexists _; iexact H4
  · have hc0 : ¬cond4_0 (grid4.coords t) := fun h => h0 ((hcond4_0 t).mp h)
    by_cases h1 : t.val = 49
    · have hc1 : cond4_1 (grid4.coords t) := (hcond4_1 t).mpr h1
      rw [show (dat4 V c).leavesExact 4 t = owns c.tc (ms4_4 t) fullShare ((dat4 V c).after 4 t) from by
        unfold Dat.leavesExact; rw [liveAt4_4 t hc1], after4_4]
      unfold out4_4
      rw [acc4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run4_C c (grid4.coords t) _ _ _ _ _ _ _ _ _ _ _ _ _ _ hc0 hc1 (iblk4 V c 0 t) (iblk4 V c 1 t) (iblk4 V c 2 t) (iblk4 V c 3 t) _ _ Set.univ _)
      iframe H0 H1 H2 H3 HS0 HS1
      isplitl [H4]; · iexists _; iexact H4
      iintro ⟨H0, H1, H2, H3, H4, HS0, HS1⟩
      iframe HS0 HS1 Hr Hg Ho H0 H1 H2 H3
      iexact H4
    · have hc1 : ¬cond4_1 (grid4.coords t) := fun h => h1 ((hcond4_1 t).mp h)
      rw [Dat.leavesExact_idle (dat4 V c) 4 t (idleAt4_4 t hc1) (noFlush4_4 t hc1)]
      rw [acc4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run4_B c (grid4.coords t) _ _ _ _ _ _ _ _ _ _ _ _ _ _ hc0 hc1 (iblk4 V c 0 t) (iblk4 V c 1 t) (iblk4 V c 2 t) (iblk4 V c 3 t) _ _ _ Set.univ _)
      iframe H0 H1 H2 H3 H4 HS0 HS1
      iintro ⟨H0, H1, H2, H3, H4, HS0, HS1⟩
      iframe HS0 HS1 Hr Hg Ho H0 H1 H2 H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem hout4 (c : Dev nD) : (dat4 V c).Φ (Fin.last cfg4.N) ⊢ Pipeline.ΦA spec4 c :=
  Phi_out4 V c _ (by rw [Fin.val_last]; have : cfg4.N = 50 := N_4; omega)

end

end Cert.Kernel.Frame

end
-- ==== Proof.K.Run.lean ====
import proofs.«419359_j12352325943372_2_alg».proof.Proof.K.Vals
import proofs.«419359_j12352325943372_2_alg».proof.Proof.K.R4

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W10 (c : Dev nD) : Valuation τ sig (Elt F) :=
  Pipeline.withArrays spec4 c (W9 m ρ c) fun w => (dat4 (E9 m ρ) c).arrAt w cfg4.N
theorem W10_arr (c : Dev nD) (w : Fin cfg4.W) :
    W10 m ρ c (Proc.devRef .tc (Pipeline.arrRef spec4 w)) = (dat4 (E9 m ρ) c).arrAt w cfg4.N := by
  unfold W10; exact Pipeline.withArrays_arr spec4 launch4.win.arr_inj c _ _ w
theorem W10_kept (c : Dev nD) (r : Ref sig .tc) (h : NotOut cfg4 r) :
    W10 m ρ c (Proc.devRef .tc r) = W9 m ρ c (Proc.devRef .tc r) := by
  unfold W10
  exact withArrays_same spec4 launch4.win.arr_inj c _ _ r fun w e => ((dat4 (E9 m ρ) c).arrAt_in w (h w e) _).trans (A_eq4 (E9 m ρ) c w)

/-- No item of the program writes the unscoped buffer `r`. -/
abbrev Untouched (r : Ref sig .tc) : Prop :=
  ¬ (Proc.devRef .tc r : DevRef τ sig).isScoped
    ∧ r ∉ hostOps0_W
    ∧ NotOut cfg0 r
    ∧ r ∉ hostOps1_W
    ∧ NotOut cfg1 r
    ∧ r ∉ hostOps2_W
    ∧ NotOut cfg2 r
    ∧ r ∉ hostOps3_W
    ∧ NotOut cfg3 r
    ∧ r ∉ hostOps4_W
    ∧ NotOut cfg4 r

abbrev admF : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) admF p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
abbrev 𝒱₀ : Variants := Variants.none

abbrev Lv : GSem nD τ sig → Finset Unit := fun _ => ∅
abbrev lvl : GSem nD τ sig → Unit → ℕ := fun _ _ => 0

abbrev Rst (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in
/-- A kernel region as a segment of the run: it takes every unscoped buffer from `Wi` to `Wo` and owes nothing. -/
def regOf (p : Fin 5) (lf : Pipeline.LaunchFacts (nD := nD) (τ := τ) cfgs p) (Wi Wo : Dev nD → Valuation τ sig (Elt F))
    (hbody : ∀ c, Pipeline.BodyObligationLoose (pdats m ρ p c) defs₀ 𝒱₀ () Set.univ)
    (howed : ∀ c t, (pdats m ρ p c).owed t = 0) (hrec : ∀ c x, x ∈ (pdats m ρ p c).recorded 0) (hq : ∀ c w, (pdats m ρ p c).q w = fullShare)
    (hA : ∀ c w, (pdats m ρ p c).A w = Wi c (Pipeline.arrRef (Pipeline.pin (pcfgs (F := F)) admF p).spec w))
    (hin : ∀ c, (Pipeline.ΦA (Pipeline.pin (pcfgs (F := F)) admF p).spec c : sProp 𝕄) ⊢ (pdats m ρ p c).Φ 0)
    (hout : ∀ c, (pdats m ρ p c).Φ (Fin.last (Pipeline.pin (pcfgs (F := F)) admF p).N) ⊢ (Pipeline.ΦA (Pipeline.pin (pcfgs (F := F)) admF p).spec c : sProp 𝕄))
    (harr : ∀ c w, Wo c (Pipeline.arrRef (Pipeline.pin (pcfgs (F := F)) admF p).spec w) = (pdats m ρ p c).arrAt w (Pipeline.pin (pcfgs (F := F)) admF p).N)
    (hkept : ∀ c (r : Ref sig .tc), NotOut (Pipeline.pin (pcfgs (F := F)) admF p) r → Wo c r = Wi c r) :
    Pipeline.RegionSeg (pcfgs (F := F)) admF (pdats m ρ) () defs₀ 𝒱₀ Lv lvl p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ Lv lvl p howed
  pre c := iprop(StableHlo.held (c : Thread nD τ) (Pipeline.ucRefs τ sig) (Wi c) ∗ Rst c)
  post c := iprop(StableHlo.held (c : Thread nD τ) (Pipeline.ucRefs τ sig) (Wo c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admF p).spec c (fun b => Wi c b)
  hentry c := by
    rw [Pipeline.ownSems0_none]
    have hsplit := Pipeline.arrays_of_unscopedBufs (p := p) (pcfgs (F := F)) admF (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admF (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (Pipeline.pin (pcfgs (F := F)) admF p).N) (fun w => (harr c w).symm)
      (fun b hb => hkept c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) admF (pdats m ρ) () defs₀ 𝒱₀ Lv lvl 0 :=
  regOf m ρ 0 launch0 (W1 m ρ) (W2 m ρ) (fun c => (body_obligation0 (E1 m ρ) c).loose) (fun _ _ => rfl) (fun _ _ => trivial) (fun _ _ => rfl)
    (fun _ _ => rfl) (fun _ => .rfl) (fun _ => .rfl) (W2_arr m ρ) (W2_kept m ρ)
def reg1 : Pipeline.RegionSeg (pcfgs (F := F)) admF (pdats m ρ) () defs₀ 𝒱₀ Lv lvl 1 :=
  regOf m ρ 1 launch1 (W3 m ρ) (W4 m ρ) (fun c => (body_obligation1 (E3 m ρ) c).loose) (fun _ _ => rfl) (fun _ _ => trivial) (fun _ _ => rfl)
    (fun _ _ => rfl) (fun _ => .rfl) (fun _ => .rfl) (W4_arr m ρ) (W4_kept m ρ)
def reg2 : Pipeline.RegionSeg (pcfgs (F := F)) admF (pdats m ρ) () defs₀ 𝒱₀ Lv lvl 2 :=
  regOf m ρ 2 launch2 (W5 m ρ) (W6 m ρ) (fun c => (body_obligation2 (E5 m ρ) c).loose) (fun _ _ => rfl) (fun _ _ => trivial) (fun _ _ => rfl)
    (fun _ _ => rfl) (fun _ => .rfl) (fun _ => .rfl) (W6_arr m ρ) (W6_kept m ρ)
def reg3 : Pipeline.RegionSeg (pcfgs (F := F)) admF (pdats m ρ) () defs₀ 𝒱₀ Lv lvl 3 :=
  regOf m ρ 3 launch3 (W7 m ρ) (W8 m ρ) (fun c => (body_obligation3 (E7 m ρ) c).loose) (fun _ _ => rfl) (fun _ _ => trivial) (fun _ _ => rfl)
    (fun _ _ => rfl) (fun _ => .rfl) (fun _ => .rfl) (W8_arr m ρ) (W8_kept m ρ)
def reg4 : Pipeline.RegionSeg (pcfgs (F := F)) admF (pdats m ρ) () defs₀ 𝒱₀ Lv lvl 4 :=
  regOf m ρ 4 launch4 (W9 m ρ) (W10 m ρ) (fun c => (body_obligation4 (E9 m ρ) c).loose) (fun _ _ => rfl) (fun _ _ => trivial) (fun _ _ => rfl)
    (fun _ _ => rfl) (hin4 (E9 m ρ)) (hout4 (E9 m ρ)) (W10_arr m ρ) (W10_kept m ρ)

abbrev mainSegs : List (Pipeline.Seg (pcfgs (F := F)) admF (pdats m ρ) () defs₀ 𝒱₀ Lv lvl) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]

theorem main_run (c : Dev nD) : main (F := F) c = Pipeline.Seg.run (mainSegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) admF (pdats m ρ) () cellOf_inj emb₁ defs₀ 𝒱₀ Lv lvl m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach Lv lvl fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- At the end a buffer no item writes holds its launch contents. -/
theorem end_kept (c : Dev nD) (mem : (ℓ : Loc nD τ sig) → Buf (Elt F) ℓ)
    (h : ∀ b ∈ Pipeline.ucRefs τ sig, mem (((c : Thread nD τ)).1, b) = W10 m ρ c b) (r : Ref sig .tc) (hr : Untouched r) :
    mem ((c.tc : Thread nD τ).loc r) = m ((c.tc : Thread nD τ).loc r) := by
  obtain ⟨hs, h0, a0, h1, a1, h2, a2, h3, a3, h4, a4⟩ := hr
  exact (h _ (mem_uc r hs)).trans ((W10_kept m ρ c r a4).trans (W9_m m ρ c r h0 a0 h1 a1 h2 a2 h3 a3 h4))

end Cert.Kernel.Frame

end
-- ==== Proof.KI.R0.lean ====
import proofs.«419359_j12352325943372_2_alg».proof.Proof.Gen.KernelIdeal.Launch
import proofs.«419359_j12352325943372_2_alg».proof.Proof.Gen.KernelIdeal.Skeleton
import proofs.«419359_j12352325943372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x64 := Rect.unit (s := S10000x64) ![0, 0] S10000x64.size inb_S10000x64_S10000x64_0_0
abbrev r0_e : Rect S10000x16 := Rect.unit (s := S10000x16) ![0, 0] S10000x16.size inb_S10000x16_S10000x16_0_0
abbrev r0_p : Rect S16x64 := Rect.unit (s := S16x64) ![0, 0] S16x64.size inb_S16x64_S16x64_0_0
abbrev r0_b : Rect S1x64 := Rect.unit (s := S1x64) ![0, 0] S1x64.size inb_S1x64_S1x64_0_0

def out0_4 (x0 : Vec F S10000x64 .bf16) (x1 : Vec F S10000x16 .f32) (x2 : Vec F S16x64 .f32) (x3 : Vec F S1x64 .f32) : Vec F S10000x64 .bf16 :=
  View.canon [⟨r0_x, k0_pay1 (View.ld x1 r0_e) (View.ld x2 r0_p) (View.ld x0 r0_x) (View.ld x3 r0_b)⟩]

theorem cover0_4 (p0 : Vec F S10000x64 .bf16) (y : S10000x64.Idx) :
    ∃ pc ∈ ([⟨r0_x, p0⟩] : List (View.Piece (Elt F) S10000x64 .bf16)), y ∈ pc.1.set :=
  View.cover_of_tiled [⟨r0_x, p0⟩] S10000x64.size (by rfl) y

set_option maxHeartbeats 4000000 in

theorem sound_kernel0 (c : Dev nD) (E : Set ℕ) (i : grid0.Coords)
    (arg1 : Memref sig .tc .vmem S10000x64 .bf16) (harg1 : arg1.IsWhole) (arg2 : Memref sig .tc .vmem S10000x16 .f32) (harg2 : arg2.IsWhole)
    (arg3 : Memref sig .tc .vmem S16x64 .f32) (harg3 : arg3.IsWhole) (arg4 : Memref sig .tc .vmem S1x64 .f32) (harg4 : arg4.IsWhole)
    (arg5 : Memref sig .tc .vmem S10000x64 .bf16) (harg5 : arg5.IsWhole)
    (x0 : Vec F S10000x64 .bf16) (x1 : Vec F S10000x16 .f32) (x2 : Vec F S16x64 .f32) (x3 : Vec F S1x64 .f32) (K : PUnit → sProp 𝕄) :
    iprop(owns c.tc arg1 fullShare x0 ∗ owns c.tc arg2 fullShare x1
        ∗ owns c.tc arg3 fullShare x2 ∗ owns c.tc arg4 fullShare x3
        ∗ (∃ d, owns c.tc arg5 fullShare d)
        ∗ (iprop(owns c.tc arg1 fullShare x0 ∗ owns c.tc arg2 fullShare x1
            ∗ owns c.tc arg3 fullShare x2 ∗ owns c.tc arg4 fullShare x3
            ∗ owns c.tc arg5 fullShare (out0_4 x0 x1 x2 x3)) -∗ K ⟨⟩))
      ⊢ wp frame (wpE (defs₀ (F := F)) Variants.none c none) E (cc0__edge_msg_kernel i arg1 harg1 arg2 harg2 arg3 harg3 arg4 harg4 arg5 harg5) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns c.tc (st0_0 t) fullShare ((dat0 V c).before 0 t d))
    ∗ (∃ d, owns c.tc (st0_1 t) fullShare ((dat0 V c).before 1 t d))
    ∗ (∃ d, owns c.tc (st0_2 t) fullShare ((dat0 V c).before 2 t d))
    ∗ (∃ d, owns c.tc (st0_3 t) fullShare ((dat0 V c).before 3 t d))
    ∗ (∃ d, owns c.tc (st0_4 t) fullShare ((dat0 V c).before 4 t d)))

def bodyPost0 (c : Dev nD) (t : Fin cfg0.N) : sProp 𝕄 :=
  iprop((dat0 V c).Φ t.succ ∗ (dat0 V c).owesAt () t.succ
    ∗ owns c.tc (st0_0 t) fullShare ((dat0 V c).after 0 t)
    ∗ owns c.tc (st0_1 t) fullShare ((dat0 V c).after 1 t)
    ∗ owns c.tc (st0_2 t) fullShare ((dat0 V c).after 2 t)
    ∗ owns c.tc (st0_3 t) fullShare ((dat0 V c).after 3 t)
    ∗ owns c.tc (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  iframe H0 H1 H2 H3
  isplitl [H4]; · iexists _; iexact H4
  iintro ⟨H0, H1, H2, H3, H4⟩
  iframe

theorem body_obligation0 (c : Dev nD) : BodyObligation (dat0 (F := F) V c) (defs₀ (F := F)) Variants.none () Set.univ := fun t => by
  rw [bigSep_W0, bigSep_W0]
  exact sound_body0 V c t

end

end Cert.KernelIdeal.Frame

end
-- ==== Proof.KI.R1.lean ====
import proofs.«419359_j12352325943372_2_alg».proof.Proof.Gen.KernelIdeal.Launch
import proofs.«419359_j12352325943372_2_alg».proof.Proof.Gen.KernelIdeal.Skeleton
import proofs.«419359_j12352325943372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S64x128 := Rect.unit (s := S64x128) ![0, 0] S64x128.size inb_S64x128_S64x128_0_0
abbrev r1_3 : Rect S1x128 := Rect.unit (s := S1x128) ![0, 0] S1x128.size inb_S1x128_S1x128_0_0
abbrev r1_4 : Rect S128x128 := Rect.unit (s := S128x128) ![0, 0] S128x128.size inb_S128x128_S128x128_0_0
abbrev r1_5 : Rect S1x128 := Rect.unit (s := S1x128) ![0, 0] S1x128.size inb_S1x128_S1x128_0_0
abbrev r1_6 : Rect S5000x128 := Rect.unit (s := S5000x128) ![0, 0] S5000x128.size inb_S5000x128_S5000x128_0_0

def out1_6 (x0 : Vec F S5000x64 .f32) (x1 : Vec F S5000x64 .f32) (x2 : Vec F S64x128 .f32) (x3 : Vec F S1x128 .f32) (x4 : Vec F S128x128 .f32) (x5 : Vec F S1x128 .f32) : Vec F S5000x128 .f32 :=
  View.canon [⟨r1_6, k1_pay1 (View.ld x0 r1_0) (View.ld x1 r1_1) (View.ld x2 r1_2) (View.ld x3 r1_3) (View.ld x4 r1_4) (View.ld x5 r1_5)⟩]

theorem cover1_6 (p0 : Vec F S5000x128 .f32) (y : S5000x128.Idx) :
    ∃ pc ∈ ([⟨r1_6, p0⟩] : List (View.Piece (Elt F) S5000x128 .f32)), y ∈ pc.1.set :=
  View.cover_of_tiled [⟨r1_6, p0⟩] S5000x128.size (by rfl) y

set_option maxHeartbeats 4000000 in

theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x64 .f32) (x1 : Vec F S5000x64 .f32) (x2 : Vec F S64x128 .f32) (x3 : Vec F S1x128 .f32) (x4 : Vec F S128x128 .f32) (x5 : Vec F S1x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (out1_6 x0 x1 x2 x3 x4 x5)) -∗ K ⟨⟩))
      ⊢ wp frame (wpE (defs₀ (F := F)) Variants.none c none) E (cc1__node_update_kernel i arg1 harg1 arg2 harg2 arg3 harg3 arg4 harg4 arg5 harg5 arg6 harg6 arg7 harg7) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns c.tc (st1_0 t) fullShare ((dat1 V c).before 0 t d))
    ∗ (∃ d, owns c.tc (st1_1 t) fullShare ((dat1 V c).before 1 t d))
    ∗ (∃ d, owns c.tc (st1_2 t) fullShare ((dat1 V c).before 2 t d))
    ∗ (∃ d, owns c.tc (st1_3 t) fullShare ((dat1 V c).before 3 t d))
    ∗ (∃ d, owns c.tc (st1_4 t) fullShare ((dat1 V c).before 4 t d))
    ∗ (∃ d, owns c.tc (st1_5 t) fullShare ((dat1 V c).before 5 t d))
    ∗ (∃ d, owns c.tc (st1_6 t) fullShare ((dat1 V c).before 6 t d)))

def bodyPost1 (c : Dev nD) (t : Fin cfg1.N) : sProp 𝕄 :=
  iprop((dat1 V c).Φ t.succ ∗ (dat1 V c).owesAt () t.succ
    ∗ owns c.tc (st1_0 t) fullShare ((dat1 V c).after 0 t)
    ∗ owns c.tc (st1_1 t) fullShare ((dat1 V c).after 1 t)
    ∗ owns c.tc (st1_2 t) fullShare ((dat1 V c).after 2 t)
    ∗ owns c.tc (st1_3 t) fullShare ((dat1 V c).after 3 t)
    ∗ owns c.tc (st1_4 t) fullShare ((dat1 V c).after 4 t)
    ∗ owns c.tc (st1_5 t) fullShare ((dat1 V c).after 5 t)
    ∗ owns c.tc (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t
end
end Cert.KernelIdeal.Frame
end
-- ==== Proof.KI.R2.lean ====
import proofs.«419359_j12352325943372_2_alg».proof.Proof.Gen.KernelIdeal.Launch
import proofs.«419359_j12352325943372_2_alg».proof.Proof.Gen.KernelIdeal.Skeleton
import proofs.«419359_j12352325943372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x128 := Rect.unit (s := S10000x128) ![0, 0] S10000x128.size inb_S10000x128_S10000x128_0_0
abbrev r2_e : Rect S10000x16 := Rect.unit (s := S10000x16) ![0, 0] S10000x16.size inb_S10000x16_S10000x16_0_0
abbrev r2_p : Rect S16x128 := Rect.unit (s := S16x128) ![0, 0] S16x128.size inb_S16x128_S16x128_0_0
abbrev r2_b : Rect S1x128 := Rect.unit (s := S1x128) ![0, 0] S1x128.size inb_S1x128_S1x128_0_0

def out2_4 (x0 : Vec F S10000x128 .bf16) (x1 : Vec F S10000x16 .f32) (x2 : Vec F S16x128 .f32) (x3 : Vec F S1x128 .f32) : Vec F S10000x128 .bf16 :=
  View.canon [⟨r2_x, k2_pay1 (View.ld x1 r2_e) (View.ld x2 r2_p) (View.ld x0 r2_x) (View.ld x3 r2_b)⟩]

theorem cover2_4 (p0 : Vec F S10000x128 .bf16) (y : S10000x128.Idx) :
    ∃ pc ∈ ([⟨r2_x, p0⟩] : List (View.Piece (Elt F) S10000x128 .bf16)), y ∈ pc.1.set :=
  View.cover_of_tiled [⟨r2_x, p0⟩] S10000x128.size (by rfl) y

set_option maxHeartbeats 4000000 in

theorem sound_kernel2 (c : Dev nD) (E : Set ℕ) (i : grid2.Coords)
    (arg1 : Memref sig .tc .vmem S10000x128 .bf16) (harg1 : arg1.IsWhole) (arg2 : Memref sig .tc .vmem S10000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S10000x128 .bf16) (harg5 : arg5.IsWhole)
    (x0 : Vec F S10000x128 .bf16) (x1 : Vec F S10000x16 .f32) (x2 : Vec F S16x128 .f32) (x3 : Vec F S1x128 .f32) (K : PUnit → sProp 𝕄) :
    iprop(owns c.tc arg1 fullShare x0 ∗ owns c.tc arg2 fullShare x1
        ∗ owns c.tc arg3 fullShare x2 ∗ owns c.tc arg4 fullShare x3
        ∗ (∃ d, owns c.tc arg5 fullShare d)
        ∗ (iprop(owns c.tc arg1 fullShare x0 ∗ owns c.tc arg2 fullShare x1
            ∗ owns c.tc arg3 fullShare x2 ∗ owns c.tc arg4 fullShare x3
            ∗ owns c.tc arg5 fullShare (out2_4 x0 x1 x2 x3)) -∗ K ⟨⟩))
      ⊢ wp frame (wpE (defs₀ (F := F)) Variants.none c none) E (cc2__edge_msg_kernel i arg1 harg1 arg2 harg2 arg3 harg3 arg4 harg4 arg5 harg5) K := by
  simp only [cc2__edge_msg_kernel_eq_skeleton]; unfold cc2__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns c.tc (st2_0 t) fullShare ((dat2 V c).before 0 t d))
    ∗ (∃ d, owns c.tc (st2_1 t) fullShare ((dat2 V c).before 1 t d))
    ∗ (∃ d, owns c.tc (st2_2 t) fullShare ((dat2 V c).before 2 t d))
    ∗ (∃ d, owns c.tc (st2_3 t) fullShare ((dat2 V c).before 3 t d))
    ∗ (∃ d, owns c.tc (st2_4 t) fullShare ((dat2 V c).before 4 t d)))

def bodyPost2 (c : Dev nD) (t : Fin cfg2.N) : sProp 𝕄 :=
  iprop((dat2 V c).Φ t.succ ∗ (dat2 V c).owesAt () t.succ
    ∗ owns c.tc (st2_0 t) fullShare ((dat2 V c).after 0 t)
    ∗ owns c.tc (st2_1 t) fullShare ((dat2 V c).after 1 t)
    ∗ owns c.tc (st2_2 t) fullShare ((dat2 V c).after 2 t)
    ∗ owns c.tc (st2_3 t) fullShare ((dat2 V c).after 3 t)
    ∗ owns c.tc (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  iframe H0 H1 H2 H3
  isplitl [H4]; · iexists _; iexact H4
  iintro ⟨H0, H1, H2, H3, H4⟩
  iframe

theorem body_obligation2 (c : Dev nD) : BodyObligation (dat2 (F := F) V c) (defs₀ (F := F)) Variants.none () Set.univ := fun t => by
  rw [bigSep_W2, bigSep_W2]
  exact sound_body2 V c t

end

end Cert.KernelIdeal.Frame

end
-- ==== Proof.KI.R3.lean ====
import proofs.«419359_j12352325943372_2_alg».proof.Proof.Gen.KernelIdeal.Launch
import proofs.«419359_j12352325943372_2_alg».proof.Proof.Gen.KernelIdeal.Skeleton
import proofs.«419359_j12352325943372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x128 := Rect.unit (s := S5000x128) ![0, 0] S5000x128.size inb_S5000x128_S5000x128_0_0
abbrev r3_2 : Rect S128x128 := Rect.unit (s := S128x128) ![0, 0] S128x128.size inb_S128x128_S128x128_0_0
abbrev r3_3 : Rect S1x128 := Rect.unit (s := S1x128) ![0, 0] S1x128.size inb_S1x128_S1x128_0_0
abbrev r3_4 : Rect S128x128 := Rect.unit (s := S128x128) ![0, 0] S128x128.size inb_S128x128_S128x128_0_0
abbrev r3_5 : Rect S1x128 := Rect.unit (s := S1x128) ![0, 0] S1x128.size inb_S1x128_S1x128_0_0
abbrev r3_6 : Rect S5000x128 := Rect.unit (s := S5000x128) ![0, 0] S5000x128.size inb_S5000x128_S5000x128_0_0

def out3_6 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r3_6, k3_pay1 (View.ld x0 r3_0) (View.ld x1 r3_1) (View.ld x2 r3_2) (View.ld x3 r3_3) (View.ld x4 r3_4) (View.ld x5 r3_5)⟩]

theorem cover3_6 (p0 : Vec F S5000x128 .f32) (y : S5000x128.Idx) :
    ∃ pc ∈ ([⟨r3_6, p0⟩] : List (View.Piece (Elt F) S5000x128 .f32)), y ∈ pc.1.set :=
  View.cover_of_tiled [⟨r3_6, p0⟩] S5000x128.size (by rfl) y

set_option maxHeartbeats 4000000 in

theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (out3_6 x0 x1 x2 x3 x4 x5)) -∗ K ⟨⟩))
      ⊢ wp frame (wpE (defs₀ (F := F)) Variants.none c none) E (cc3__node_update_kernel i arg1 harg1 arg2 harg2 arg3 harg3 arg4 harg4 arg5 harg5 arg6 harg6 arg7 harg7) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns c.tc (st3_0 t) fullShare ((dat3 V c).before 0 t d))
    ∗ (∃ d, owns c.tc (st3_1 t) fullShare ((dat3 V c).before 1 t d))
    ∗ (∃ d, owns c.tc (st3_2 t) fullShare ((dat3 V c).before 2 t d))
    ∗ (∃ d, owns c.tc (st3_3 t) fullShare ((dat3 V c).before 3 t d))
    ∗ (∃ d, owns c.tc (st3_4 t) fullShare ((dat3 V c).before 4 t d))
    ∗ (∃ d, owns c.tc (st3_5 t) fullShare ((dat3 V c).before 5 t d))
    ∗ (∃ d, owns c.tc (st3_6 t) fullShare ((dat3 V c).before 6 t d)))

def bodyPost3 (c : Dev nD) (t : Fin cfg3.N) : sProp 𝕄 :=
  iprop((dat3 V c).Φ t.succ ∗ (dat3 V c).owesAt () t.succ
    ∗ owns c.tc (st3_0 t) fullShare ((dat3 V c).after 0 t)
    ∗ owns c.tc (st3_1 t) fullShare ((dat3 V c).after 1 t)
    ∗ owns c.tc (st3_2 t) fullShare ((dat3 V c).after 2 t)
    ∗ owns c.tc (st3_3 t) fullShare ((dat3 V c).after 3 t)
    ∗ owns c.tc (st3_4 t) fullShare ((dat3 V c).after 4 t)
    ∗ owns c.tc (st3_5 t) fullShare ((dat3 V c).after 5 t)
    ∗ owns c.tc (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  iintro ⟨H0, H1, H2, H3, H4, H5, H6⟩
  iframe

theorem body_obligation3 (c : Dev nD) : BodyObligation (dat3 (F := F) V c) (defs₀ (F := F)) Variants.none () Set.univ := fun t => by
  rw [bigSep_W3, bigSep_W3]
  exact sound_body3 V c t
end
end Cert.KernelIdeal.Frame
end
-- ==== Proof.KI.Vals.lean ====
import proofs.«419359_j12352325943372_2_alg».proof.Proof.KI.R0
import proofs.«419359_j12352325943372_2_alg».proof.Proof.KI.R1
import proofs.«419359_j12352325943372_2_alg».proof.Proof.KI.R2
import proofs.«419359_j12352325943372_2_alg».proof.Proof.KI.R3
import proofs.«419359_j12352325943372_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Arrays put back at the contents they were taken at change nothing. -/
theorem withArrays_same {gr Wn : ℕ} (win : Fin Wn → Pipeline.WinSpec sig gr) (hinj : Function.Injective (Pipeline.arrRef win)) (c : Dev nD)
    (V : Valuation τ sig (Elt F)) (A : (w : Fin Wn) → Buf (Elt F) ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases e : ∃ w, Pipeline.arrRef win w = b
  · obtain ⟨w, rfl⟩ := e
    exact (Pipeline.withArrays_arr win hinj c V A w).trans (h w rfl)
  · exact Pipeline.withArrays_of_ne win c V A b fun w hw => e ⟨w, hw⟩

/-- `r` is no output array of the pipeline `cfg`. -/
abbrev NotOut (cfg : Pipeline.Cfg sig Λ₀) (r : Ref sig .tc) : Prop := ∀ w, Pipeline.arrRef cfg.spec w = r → (cfg.win w).isOut = false

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_kept (c : Dev nD) (r : Ref sig .tc) (h : NotOut cfg0 r) :
    W2 m ρ c (Proc.devRef .tc r) = W1 m ρ c (Proc.devRef .tc r) := by
  unfold W2
  exact withArrays_same spec0 launch0.win.arr_inj c _ _ r fun w e => ((dat0 (E1 m ρ) c).arrAt_in w (h w e) _).trans (A_eq0 (E1 m ρ) c w)

abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_kept (c : Dev nD) (r : Ref sig .tc) (h : NotOut cfg1 r) :
    W4 m ρ c (Proc.devRef .tc r) = W3 m ρ c (Proc.devRef .tc r) := by
  unfold W4
  exact withArrays_same spec1 launch1.win.arr_inj c _ _ r fun w e => ((dat1 (E3 m ρ) c).arrAt_in w (h w e) _).trans (A_eq1 (E3 m ρ) c w)

abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_kept (c : Dev nD) (r : Ref sig .tc) (h : NotOut cfg2 r) :
    W6 m ρ c (Proc.devRef .tc r) = W5 m ρ c (Proc.devRef .tc r) := by
  unfold W6
  exact withArrays_same spec2 launch2.win.arr_inj c _ _ r fun w e => ((dat2 (E5 m ρ) c).arrAt_in w (h w e) _).trans (A_eq2 (E5 m ρ) c w)

abbrev W7 : Dev nD → Valuation τ sig (Elt F) := fun c => StableHlo.after hostOps3 (W6 m ρ c)
abbrev E7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_kept (c : Dev nD) (r : Ref sig .tc) (h : NotOut cfg3 r) :
    W8 m ρ c (Proc.devRef .tc r) = W7 m ρ c (Proc.devRef .tc r) := by
  unfold W8
  exact withArrays_same spec3 launch3.win.arr_inj c _ _ r fun w e => ((dat3 (E7 m ρ) c).arrAt_in w (h w e) _).trans (A_eq3 (E7 m ρ) c w)

abbrev W9 : Dev nD → Valuation τ sig (Elt F) := fun c => StableHlo.after hostOps4 (W8 m ρ c)
abbrev E9 : (c : Dev nD) → (b : Ref sig .tc) → Buf (Elt F) ((c : Thread nD τ).loc b) := fun c b => W9 m ρ c b
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- A buffer that no host stretch so far writes and that is no output array of a region so far holds its launch contents. -/
theorem W1_m (c : Dev nD) (r : Ref sig .tc) (h0 : r ∉ hostOps0_W) :
    W1 m ρ c (Proc.devRef .tc r) = m ((c : Thread nD τ).loc r) :=
  (W1_of m ρ c r h0).trans rfl
theorem W2_m (c : Dev nD) (r : Ref sig .tc) (h0 : r ∉ hostOps0_W) (a0 : NotOut cfg0 r) :
    W2 m ρ c (Proc.devRef .tc r) = m ((c : Thread nD τ).loc r) :=
  (W2_kept m ρ c r a0).trans (W1_m m ρ c r h0)
theorem W3_m (c : Dev nD) (r : Ref sig .tc) (h0 : r ∉ hostOps0_W) (a0 : NotOut cfg0 r) (h1 : r ∉ hostOps1_W) :
    W3 m ρ c (Proc.devRef .tc r) = m ((c : Thread nD τ).loc r) :=
  (W3_of m ρ c r h1).trans (W2_m m ρ c r h0 a0)
theorem W4_m (c : Dev nD) (r : Ref sig .tc) (h0 : r ∉ hostOps0_W) (a0 : NotOut cfg0 r) (h1 : r ∉ hostOps1_W) (a1 : NotOut cfg1 r) :
    W4 m ρ c (Proc.devRef .tc r) = m ((c : Thread nD τ).loc r) :=
  (W4_kept m ρ c r a1).trans (W3_m m ρ c r h0 a0 h1)
theorem W5_m (c : Dev nD) (r : Ref sig .tc) (h0 : r ∉ hostOps0_W) (a0 : NotOut cfg0 r) (h1 : r ∉ hostOps1_W) (a1 : NotOut cfg1 r) (h2 : r ∉ hostOps2_W) :
    W5 m ρ c (Proc.devRef .tc r) = m ((c : Thread nD τ).loc r) :=
  (W5_of m ρ c r h2).trans (W4_m m ρ c r h0 a0 h1 a1)
theorem W6_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) :
    W6 m ρ c (Proc.devRef .tc r) = m ((c : Thread nD τ).loc r) :=
  (W6_kept m ρ c r a2).trans (W5_m m ρ c r h0 a0 h1 a1 h2)
theorem W7_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) (h3 : r ∉ hostOps3_W) :
    W7 m ρ c (Proc.devRef .tc r) = m ((c : Thread nD τ).loc r) :=
  (W7_of m ρ c r h3).trans (W6_m m ρ c r h0 a0 h1 a1 h2 a2)
theorem W8_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) (h3 : r ∉ hostOps3_W) (a3 : NotOut cfg3 r) :
    W8 m ρ c (Proc.devRef .tc r) = m ((c : Thread nD τ).loc r) :=
  (W8_kept m ρ c r a3).trans (W7_m m ρ c r h0 a0 h1 a1 h2 a2 h3)
theorem W9_m (c : Dev nD) (r : Ref sig .tc) (h0 : r ∉ hostOps0_W) (a0 : NotOut cfg0 r) (h1 : r ∉ hostOps1_W) (a1 : NotOut cfg1 r) (h2 : r ∉ hostOps2_W) (a2 : NotOut cfg2 r) (h3 : r ∉ hostOps3_W) (a3 : NotOut cfg3 r) (h4 : r ∉ hostOps4_W) :
    W9 m ρ c (Proc.devRef .tc r) = m ((c : Thread nD τ).loc r) :=
  (W9_of m ρ c r h4).trans (W8_m m ρ c r h0 a0 h1 a1 h2 a2 h3 a3)

end Cert.KernelIdeal.Frame

end
-- ==== Proof.KI.R4.lean ====
import proofs.«419359_j12352325943372_2_alg».proof.Proof.Gen.KernelIdeal.Launch
import proofs.«419359_j12352325943372_2_alg».proof.Proof.Gen.KernelIdeal.Skeleton
import proofs.«419359_j12352325943372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S256x128 .f32 × Vec F S256x1 .f32
  | 0, h => (k4_pay4 (iblk4 V c 0 ⟨0, h⟩) (iblk4 V c 1 ⟨0, h⟩) (k4_pay1 (F := F)), k4_pay5 (iblk4 V c 1 ⟨0, h⟩) (k4_pay2 (F := F)))
  | n + 1, h => (k4_pay4 (iblk4 V c 0 ⟨n + 1, h⟩) (iblk4 V c 1 ⟨n + 1, h⟩) (acc4 c n (Nat.lt_of_succ_lt h)).1, k4_pay5 (iblk4 V c 1 ⟨n + 1, h⟩) (acc4 c n (Nat.lt_of_succ_lt h)).2)

def out4_4 (c : Dev nD) (t : Fin cfg4.N) : Vec F S256x1 .f32 := k4_pay6 (acc4 V c t.val t.isLt).1 (acc4 V c t.val t.isLt).2 (iblk4 V c 2 t) (iblk4 V c 3 t)

abbrev scM4_0 : Memref sig .tc .vmem S256x128 .f32 := Memref.whole cc4_scratch0
abbrev scM4_1 : Memref sig .tc .vmem S256x1 .f32 := Memref.whole cc4_scratch1

theorem PhiA4_eq (c : Dev nD) :
    (Pipeline.ΦA spec4 c : sProp 𝕄)
      = iprop(iprop(iprop((∃ d, owns c.tc scM4_0 fullShare d) ∗ (∃ d, owns c.tc scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

def PhiS4 (c : Dev nD) : (n : ℕ) → n ≤ cfg4.N → sProp 𝕄
  | 0, _ => Pipeline.ΦA spec4 c
  | n + 1, hn => iprop(iprop(iprop(owns c.tc scM4_0 fullShare (acc4 V c n hn).1 ∗ owns c.tc scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns c.tc scM4_0 fullShare (acc4 V c n hn).1 ∗ owns c.tc scM4_1 fullShare (acc4 V c n hn).2)
          ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns c.tc scM4_0 fullShare (acc4 V c (n - 1) (by omega)).1 ∗ owns c.tc scM4_1 fullShare (acc4 V c (n - 1) (by omega)).2)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 V c t := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 49 :=
  (by decide +kernel : ∀ t : Fin grid4.N, cond4_1 (grid4.coords t) ↔ t.val = 49)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

theorem idleAt4_4 : ∀ t : Fin cfg4.N, ¬cond4_1 (grid4.coords t) → cfg4.idle 4 (grid4.coords t) = true := by decide +kernel

theorem noFlush4_4 : ∀ t : Fin cfg4.N, ¬cond4_1 (grid4.coords t) → (cfg4.win 4).flush t = false := by decide +kernel

theorem liveAt4_4 : ∀ t : Fin cfg4.N, cond4_1 (grid4.coords t) → cfg4.idle 4 (grid4.coords t) = false := by decide +kernel

theorem hz2 : (![0, 0] : Fin 2 → Nat) = fun _ => 0 := funext fun a => by fin_cases a <;> rfl

section Runs
variable (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)

set_option maxHeartbeats 1000000 in

theorem run4_A (hc0 : cond4_0 i) (hc1 : ¬cond4_1 i)
    (x0 : Vec F S2000x128 .f32) (x1 : Vec F S2000x1 .i32) (x2 : Vec F S128x1 .f32) (x3 : Vec F S1x1 .f32) (x4 : Vec F S256x1 .f32)
    (E : Set ℕ) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ (∃ d, owns c.tc arg6 fullShare d) ∗ (∃ d, owns c.tc arg7 fullShare d)
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare (k4_pay4 x0 x1 (k4_pay1 (F := F))) ∗ owns c.tc arg7 fullShare (k4_pay5 x1 (k4_pay2 (F := F)))) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_words
    rw [View.read_writes_eq_canon _ _ _ (fun y => ⟨_, List.mem_cons_self, View.mem_set_unit_zero hz2 inb_S256x128_S256x128_0_0 y⟩), View.canon_cons_unit_zero (S := S256x128) hz2]
    simp only [View.readAt_eq_ld, harg1.read_unread, harg2.read_unread, View.readCov_unit_zero (S := S256x128) _ hz2, View.ld_unit_zero (S := S2000x128) hz2, View.ld_unit_zero (S := S2000x1) hz2]

  · iexists _; isplitr
    swap; · iexact HS1
    ipureintro
    sl_unfold_words
    rw [View.read_writes_eq_canon _ _ _ (fun y => ⟨_, List.mem_cons_self, View.mem_set_unit_zero hz2 inb_S256x1_S256x1_0_0 y⟩), View.canon_cons_unit_zero (S := S256x1) hz2]
    simp only [View.readAt_eq_ld, harg2.read_unread, View.readCov_unit_zero (S := S256x1) _ hz2, View.ld_unit_zero (S := S2000x1) hz2]

set_option maxHeartbeats 1000000 in

theorem run4_B (hc0 : ¬cond4_0 i) (hc1 : ¬cond4_1 i)
    (x0 : Vec F S2000x128 .f32) (x1 : Vec F S2000x1 .i32) (x2 : Vec F S128x1 .f32) (x3 : Vec F S1x1 .f32) (x4 : Vec F S256x1 .f32)
    (s0 : Vec F S256x128 .f32) (s1 : Vec F S256x1 .f32) (E : Set ℕ) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ owns c.tc arg6 fullShare s0 ∗ owns c.tc arg7 fullShare s1
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare (k4_pay4 x0 x1 s0) ∗ owns c.tc arg7 fullShare (k4_pay5 x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_words
    rw [View.read_writes_eq_canon _ _ _ (fun y => ⟨_, List.mem_singleton_self _, View.mem_set_unit_zero hz2 inb_S256x128_S256x128_0_0 y⟩), View.canon_unit_zero (S := S256x128) hz2]
    simp only [View.readAt_eq_ld, harg1.read_unread, harg2.read_unread, harg6.read_unread, View.ld_unit_zero (S := S256x128) hz2, View.ld_unit_zero (S := S2000x128) hz2, View.ld_unit_zero (S := S2000x1) hz2]
  · iexists _; isplitr
    swap; · iexact HS1
    ipureintro
    sl_unfold_words
    rw [View.read_writes_eq_canon _ _ _ (fun y => ⟨_, List.mem_singleton_self _, View.mem_set_unit_zero hz2 inb_S256x1_S256x1_0_0 y⟩), View.canon_unit_zero (S := S256x1) hz2]
    simp only [View.readAt_eq_ld, harg2.read_unread, harg7.read_unread, View.ld_unit_zero (S := S256x1) hz2, View.ld_unit_zero (S := S2000x1) hz2]

set_option maxHeartbeats 1000000 in

theorem run4_C (hc0 : ¬cond4_0 i) (hc1 : cond4_1 i)
    (x0 : Vec F S2000x128 .f32) (x1 : Vec F S2000x1 .i32) (x2 : Vec F S128x1 .f32) (x3 : Vec F S1x1 .f32)
    (s0 : Vec F S256x128 .f32) (s1 : Vec F S256x1 .f32) (E : Set ℕ) (K : PUnit → sProp 𝕄) :
    iprop(owns c.tc arg1 fullShare x0 ∗ owns c.tc arg2 fullShare x1 ∗ owns c.tc arg3 fullShare x2
        ∗ owns c.tc arg4 fullShare x3 ∗ (∃ d, owns c.tc arg5 fullShare d)
        ∗ owns c.tc arg6 fullShare s0 ∗ owns c.tc arg7 fullShare s1
        ∗ (iprop(owns c.tc arg1 fullShare x0 ∗ owns c.tc arg2 fullShare x1 ∗ owns c.tc arg3 fullShare x2
            ∗ owns c.tc arg4 fullShare x3 ∗ owns c.tc arg5 fullShare (k4_pay6 (k4_pay4 x0 x1 s0) (k4_pay5 x1 s1) x2 x3)
            ∗ owns c.tc arg6 fullShare (k4_pay4 x0 x1 s0) ∗ owns c.tc arg7 fullShare (k4_pay5 x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (fun y => ⟨_, List.mem_singleton_self _, View.mem_set_unit_zero hz2 inb_S256x1_S256x1_0_0 y⟩), View.canon_unit_zero (S := S256x1) hz2]

    simp only [View.readAt_eq_ld, harg1.read_unread, harg2.read_unread, harg3.read_unread, harg4.read_unread, harg6.read_unread, harg7.read_unread,
      View.readCov_unit_zero (S := S256x128) _ hz2, View.readCov_unit_zero (S := S256x1) _ hz2,
      View.ld_unit_zero (S := S256x128) hz2, View.ld_unit_zero (S := S256x1) hz2, View.ld_unit_zero (S := S2000x128) hz2, View.ld_unit_zero (S := S2000x1) hz2,
      View.ld_unit_zero (S := S128x1) hz2, View.ld_unit_zero (S := S1x1) hz2]
  isplitl [HS0]
  · iexists _; isplitr
    swap; · iexact HS0
    ipureintro
    sl_unfold_words
    rw [View.read_writes_eq_canon _ _ _ (fun y => ⟨_, List.mem_singleton_self _, View.mem_set_unit_zero hz2 inb_S256x128_S256x128_0_0 y⟩), View.canon_unit_zero (S := S256x128) hz2]
    simp only [View.readAt_eq_ld, harg1.read_unread, harg2.read_unread, harg6.read_unread, View.ld_unit_zero (S := S256x128) hz2, View.ld_unit_zero (S := S2000x128) hz2, View.ld_unit_zero (S := S2000x1) hz2]
  · iexists _; isplitr
    swap; · iexact HS1
    ipureintro
    sl_unfold_words
    rw [View.read_writes_eq_canon _ _ _ (fun y => ⟨_, List.mem_singleton_self _, View.mem_set_unit_zero hz2 inb_S256x1_S256x1_0_0 y⟩), View.canon_unit_zero (S := S256x1) hz2]
    simp only [View.readAt_eq_ld, harg2.read_unread, harg7.read_unread, View.ld_unit_zero (S := S256x1) hz2, View.ld_unit_zero (S := S2000x1) hz2]

end Runs

theorem acc4_first (c : Dev nD) (t : Fin cfg4.N) (h0 : t.val = 0) :
    acc4 V c t.val t.isLt = (k4_pay4 (iblk4 V c 0 t) (iblk4 V c 1 t) (k4_pay1 (F := F)), k4_pay5 (iblk4 V c 1 t) (k4_pay2 (F := F))) := by
  obtain ⟨n, hn⟩ := t
  cases n with
  | zero => rfl
  | succ n => exact absurd h0 (Nat.succ_ne_zero n)

theorem acc4_later (c : Dev nD) (t : Fin cfg4.N) (h0 : t.val ≠ 0) :
    acc4 V c t.val t.isLt = (k4_pay4 (iblk4 V c 0 t) (iblk4 V c 1 t) (acc4 V c (t.val - 1) (Nat.lt_of_le_of_lt (Nat.sub_le _ _) t.isLt)).1,
      k4_pay5 (iblk4 V c 1 t) (acc4 V c (t.val - 1) (Nat.lt_of_le_of_lt (Nat.sub_le _ _) t.isLt)).2) := by
  obtain ⟨n, hn⟩ := t
  cases n with
  | zero => exact absurd rfl h0
  | succ n => rfl

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x1 .f32 := win4_4.stage (cfg4.slots t 4)
abbrev hs4_4 (t : Fin cfg4.N) : (ms4_4 t).IsWhole := hstage4_4 ((cfg4.slots t 4).cast nbuf4_4)

def bodyPre4 (c : Dev nD) (t : Fin cfg4.N) : sProp 𝕄 :=
  iprop((dat4 V c).Φ t.castSucc ∗ (dat4 V c).owesAt () t.castSucc
    ∗ (∃ d, owns c.tc (ms4_0 t) fullShare ((dat4 V c).before 0 t d))
    ∗ (∃ d, owns c.tc (ms4_1 t) fullShare ((dat4 V c).before 1 t d))
    ∗ (∃ d, owns c.tc (ms4_2 t) fullShare ((dat4 V c).before 2 t d))
    ∗ (∃ d, owns c.tc (ms4_3 t) fullShare ((dat4 V c).before 3 t d))
    ∗ (∃ d, owns c.tc (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns c.tc (ms4_0 t) fullShare ((dat4 V c).after 0 t) from by
    unfold Dat.leavesExact; rw [liveAt4_0 t], after4_0]
  rw [show (dat4 V c).leavesExact 1 t = owns c.tc (ms4_1 t) fullShare ((dat4 V c).after 1 t) from by
    unfold Dat.leavesExact; rw [liveAt4_1 t], after4_1]
  rw [show (dat4 V c).leavesExact 2 t = owns c.tc (ms4_2 t) fullShare ((dat4 V c).after 2 t) from by
    unfold Dat.leavesExact; rw [liveAt4_2 t], after4_2]
  rw [show (dat4 V c).leavesExact 3 t = owns c.tc (ms4_3 t) fullShare ((dat4 V c).after 3 t) from by
    unfold Dat.leavesExact; rw [liveAt4_3 t], after4_3]
  by_cases h0 : t.val = 0
  · have h1 : ¬t.val = 49 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [acc4_first V c t h0]; dsimp only
    rw [PhiS4_castSucc V c t, PhiS4_zero V c _ _ h0, PhiA4_eq]
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩⟩
    iapply (run4_A c (grid4.coords t) _ _ _ _ _ _ _ _ _ _ _ _ _ _ hc0 hc1 (iblk4 V c 0 t) (iblk4 V c 1 t) (iblk4 V c 2 t) (iblk4 V c 3 t) _ Set.univ _)
    iframe H0 H1 H2 H3 H4
    isplitl [HS0]; · iexists _; iexact HS0
    isplitl [HS1]; · iexists _; iexact HS1
    iintro ⟨H0, H1, H2, H3, H4, HS0, HS1⟩
    iframe HS0 HS1 Hr Hg Ho H0 H1 H2 H3
    iexists _; iexact H4
  · have hc0 : ¬cond4_0 (grid4.coords t) := fun h => h0 ((hcond4_0 t).mp h)
    by_cases h1 : t.val = 49
    · have hc1 : cond4_1 (grid4.coords t) := (hcond4_1 t).mpr h1
      rw [show (dat4 V c).leavesExact 4 t = owns c.tc (ms4_4 t) fullShare ((dat4 V c).after 4 t) from by
        unfold Dat.leavesExact; rw [liveAt4_4 t hc1], after4_4]
      unfold out4_4
      rw [acc4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run4_C c (grid4.coords t) _ _ _ _ _ _ _ _ _ _ _ _ _ _ hc0 hc1 (iblk4 V c 0 t) (iblk4 V c 1 t) (iblk4 V c 2 t) (iblk4 V c 3 t) _ _ Set.univ _)
      iframe H0 H1 H2 H3 HS0 HS1
      isplitl [H4]; · iexists _; iexact H4
      iintro ⟨H0, H1, H2, H3, H4, HS0, HS1⟩
      iframe HS0 HS1 Hr Hg Ho H0 H1 H2 H3
      iexact H4
    · have hc1 : ¬cond4_1 (grid4.coords t) := fun h => h1 ((hcond4_1 t).mp h)
      rw [Dat.leavesExact_idle (dat4 V c) 4 t (idleAt4_4 t hc1) (noFlush4_4 t hc1)]
      rw [acc4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (run4_B c (grid4.coords t) _ _ _ _ _ _ _ _ _ _ _ _ _ _ hc0 hc1 (iblk4 V c 0 t) (iblk4 V c 1 t) (iblk4 V c 2 t) (iblk4 V c 3 t) _ _ _ Set.univ _)
      iframe H0 H1 H2 H3 H4 HS0 HS1
      iintro ⟨H0, H1, H2, H3, H4, HS0, HS1⟩
      iframe HS0 HS1 Hr Hg Ho H0 H1 H2 H3
      iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem hout4 (c : Dev nD) : (dat4 V c).Φ (Fin.last cfg4.N) ⊢ Pipeline.ΦA spec4 c :=
  Phi_out4 V c _ (by rw [Fin.val_last]; have : cfg4.N = 50 := N_4; omega)

end

end Cert.KernelIdeal.Frame

end
-- ==== Proof.KI.Run.lean ====
import proofs.«419359_j12352325943372_2_alg».proof.Proof.KI.Vals
import proofs.«419359_j12352325943372_2_alg».proof.Proof.KI.R4

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def W10 (c : Dev nD) : Valuation τ sig (Elt F) :=
  Pipeline.withArrays spec4 c (W9 m ρ c) fun w => (dat4 (E9 m ρ) c).arrAt w cfg4.N
theorem W10_arr (c : Dev nD) (w : Fin cfg4.W) :
    W10 m ρ c (Proc.devRef .tc (Pipeline.arrRef spec4 w)) = (dat4 (E9 m ρ) c).arrAt w cfg4.N := by
  unfold W10; exact Pipeline.withArrays_arr spec4 launch4.win.arr_inj c _ _ w
theorem W10_kept (c : Dev nD) (r : Ref sig .tc) (h : NotOut cfg4 r) :
    W10 m ρ c (Proc.devRef .tc r) = W9 m ρ c (Proc.devRef .tc r) := by
  unfold W10
  exact withArrays_same spec4 launch4.win.arr_inj c _ _ r fun w e => ((dat4 (E9 m ρ) c).arrAt_in w (h w e) _).trans (A_eq4 (E9 m ρ) c w)

/-- No item of the program writes the unscoped buffer `r`. -/
abbrev Untouched (r : Ref sig .tc) : Prop :=
  ¬ (Proc.devRef .tc r : DevRef τ sig).isScoped
    ∧ r ∉ hostOps0_W
    ∧ NotOut cfg0 r
    ∧ r ∉ hostOps1_W
    ∧ NotOut cfg1 r
    ∧ r ∉ hostOps2_W
    ∧ NotOut cfg2 r
    ∧ r ∉ hostOps3_W
    ∧ NotOut cfg3 r
    ∧ r ∉ hostOps4_W
    ∧ NotOut cfg4 r

abbrev admF : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) admF p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
abbrev 𝒱₀ : Variants := Variants.none

abbrev Lv : GSem nD τ sig → Finset Unit := fun _ => ∅
abbrev lvl : GSem nD τ sig → Unit → ℕ := fun _ _ => 0

abbrev Rst (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in
/-- A kernel region as a segment of the run: it takes every unscoped buffer from `Wi` to `Wo` and owes nothing. -/
def regOf (p : Fin 5) (lf : Pipeline.LaunchFacts (nD := nD) (τ := τ) cfgs p) (Wi Wo : Dev nD → Valuation τ sig (Elt F))
    (hbody : ∀ c, Pipeline.BodyObligationLoose (pdats m ρ p c) defs₀ 𝒱₀ () Set.univ)
    (howed : ∀ c t, (pdats m ρ p c).owed t = 0) (hrec : ∀ c x, x ∈ (pdats m ρ p c).recorded 0) (hq : ∀ c w, (pdats m ρ p c).q w = fullShare)
    (hA : ∀ c w, (pdats m ρ p c).A w = Wi c (Pipeline.arrRef (Pipeline.pin (pcfgs (F := F)) admF p).spec w))
    (hin : ∀ c, (Pipeline.ΦA (Pipeline.pin (pcfgs (F := F)) admF p).spec c : sProp 𝕄) ⊢ (pdats m ρ p c).Φ 0)
    (hout : ∀ c, (pdats m ρ p c).Φ (Fin.last (Pipeline.pin (pcfgs (F := F)) admF p).N) ⊢ (Pipeline.ΦA (Pipeline.pin (pcfgs (F := F)) admF p).spec c : sProp 𝕄))
    (harr : ∀ c w, Wo c (Pipeline.arrRef (Pipeline.pin (pcfgs (F := F)) admF p).spec w) = (pdats m ρ p c).arrAt w (Pipeline.pin (pcfgs (F := F)) admF p).N)
    (hkept : ∀ c (r : Ref sig .tc), NotOut (Pipeline.pin (pcfgs (F := F)) admF p) r → Wo c r = Wi c r) :
    Pipeline.RegionSeg (pcfgs (F := F)) admF (pdats m ρ) () defs₀ 𝒱₀ Lv lvl p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ Lv lvl p howed
  pre c := iprop(StableHlo.held (c : Thread nD τ) (Pipeline.ucRefs τ sig) (Wi c) ∗ Rst c)
  post c := iprop(StableHlo.held (c : Thread nD τ) (Pipeline.ucRefs τ sig) (Wo c) ∗ Rst c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) admF p).spec c (fun b => Wi c b)
  hentry c := by
    rw [Pipeline.ownSems0_none]
    have hsplit := Pipeline.arrays_of_unscopedBufs (p := p) (pcfgs (F := F)) admF (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admF (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (Pipeline.pin (pcfgs (F := F)) admF p).N) (fun w => (harr c w).symm)
      (fun b hb => hkept c b fun w e => absurd (Finset.mem_image.mpr ⟨w, Finset.mem_univ _, e⟩) hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) admF (pdats m ρ) () defs₀ 𝒱₀ Lv lvl 0 :=
  regOf m ρ 0 launch0 (W1 m ρ) (W2 m ρ) (fun c => (body_obligation0 (E1 m ρ) c).loose) (fun _ _ => rfl) (fun _ _ => trivial) (fun _ _ => rfl)
    (fun _ _ => rfl) (fun _ => .rfl) (fun _ => .rfl) (W2_arr m ρ) (W2_kept m ρ)
def reg1 : Pipeline.RegionSeg (pcfgs (F := F)) admF (pdats m ρ) () defs₀ 𝒱₀ Lv lvl 1 :=
  regOf m ρ 1 launch1 (W3 m ρ) (W4 m ρ) (fun c => (body_obligation1 (E3 m ρ) c).loose) (fun _ _ => rfl) (fun _ _ => trivial) (fun _ _ => rfl)
    (fun _ _ => rfl) (fun _ => .rfl) (fun _ => .rfl) (W4_arr m ρ) (W4_kept m ρ)
def reg2 : Pipeline.RegionSeg (pcfgs (F := F)) admF (pdats m ρ) () defs₀ 𝒱₀ Lv lvl 2 :=
  regOf m ρ 2 launch2 (W5 m ρ) (W6 m ρ) (fun c => (body_obligation2 (E5 m ρ) c).loose) (fun _ _ => rfl) (fun _ _ => trivial) (fun _ _ => rfl)
    (fun _ _ => rfl) (fun _ => .rfl) (fun _ => .rfl) (W6_arr m ρ) (W6_kept m ρ)
def reg3 : Pipeline.RegionSeg (pcfgs (F := F)) admF (pdats m ρ) () defs₀ 𝒱₀ Lv lvl 3 :=
  regOf m ρ 3 launch3 (W7 m ρ) (W8 m ρ) (fun c => (body_obligation3 (E7 m ρ) c).loose) (fun _ _ => rfl) (fun _ _ => trivial) (fun _ _ => rfl)
    (fun _ _ => rfl) (fun _ => .rfl) (fun _ => .rfl) (W8_arr m ρ) (W8_kept m ρ)
def reg4 : Pipeline.RegionSeg (pcfgs (F := F)) admF (pdats m ρ) () defs₀ 𝒱₀ Lv lvl 4 :=
  regOf m ρ 4 launch4 (W9 m ρ) (W10 m ρ) (fun c => (body_obligation4 (E9 m ρ) c).loose) (fun _ _ => rfl) (fun _ _ => trivial) (fun _ _ => rfl)
    (fun _ _ => rfl) (hin4 (E9 m ρ)) (hout4 (E9 m ρ)) (W10_arr m ρ) (W10_kept m ρ)

abbrev mainSegs : List (Pipeline.Seg (pcfgs (F := F)) admF (pdats m ρ) () defs₀ 𝒱₀ Lv lvl) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]

theorem main_run (c : Dev nD) : main (F := F) c = Pipeline.Seg.run (mainSegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) admF (pdats m ρ) () cellOf_inj emb₁ defs₀ 𝒱₀ Lv lvl m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => sep_assoc.2⟩)
    (hinit := by
      refine Pipeline.initEach Lv lvl fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- At the end a buffer no item writes holds its launch contents. -/
theorem end_kept (c : Dev nD) (mem : (ℓ : Loc nD τ sig) → Buf (Elt F) ℓ)
    (h : ∀ b ∈ Pipeline.ucRefs τ sig, mem (((c : Thread nD τ)).1, b) = W10 m ρ c b) (r : Ref sig .tc) (hr : Untouched r) :
    mem ((c.tc : Thread nD τ).loc r) = m ((c.tc : Thread nD τ).loc r) := by
  obtain ⟨hs, h0, a0, h1, a1, h2, a2, h3, a3, h4, a4⟩ := hr
  exact (h _ (mem_uc r hs)).trans ((W10_kept m ρ c r a4).trans (W9_m m ρ c r h0 a0 h1 a1 h2 a2 h3 a3 h4))

end Cert.KernelIdeal.Frame

end
-- ==== Proof.Spec.lean ====
import Idealize.ShloMosaic.PureOps.Ideal
import Idealize.ShloMosaic.Lib.ValueIdx

noncomputable section

open scoped BigOperators

namespace Cert.GraphNet

open Idealize.ShloMosaic Idealize.ShloMosaic.ValueIdx

abbrev Ix2 (a b : Nat) : Type := (⟨2, ![a, b]⟩ : Shape).Idx

def edgeMsg {E D K : Nat} (xs : Ix2 E D → EReal) (ea : Ix2 E K → EReal) (ewT : Ix2 K D → EReal) (eb : Ix2 1 D → EReal) :
    Ix2 E D → EReal :=
  fun i => max ((xs i + ∑ k : Fin K, ea (ix2 (i 0) k) * ewT (ix2 k (i 1))) + eb (ix2 0 (i 1))) 0

def nodeHidden {N Din H : Nat} (x aggr : Ix2 N Din → EReal) (waT : Ix2 Din H → EReal) (ba : Ix2 1 H → EReal) :
    Ix2 N H → EReal :=
  fun i => max ((∑ j : Fin Din, (x (ix2 (i 0) j) + aggr (ix2 (i 0) j)) * waT (ix2 j (i 1))) + ba (ix2 0 (i 1))) 0

def nodeUpd {N Din H O : Nat} (x aggr : Ix2 N Din → EReal) (waT : Ix2 Din H → EReal) (ba : Ix2 1 H → EReal)
    (wbT : Ix2 H O → EReal) (bb : Ix2 1 O → EReal) : Ix2 N O → EReal :=
  fun i => max ((∑ k : Fin H, nodeHidden x aggr waT ba (ix2 (i 0) k) * wbT (ix2 k (i 1))) + bb (ix2 0 (i 1))) 0

def inGraph {N : Nat} (b : Ix2 N 1 → BitVec 32) (n : Fin N) (g : Nat) : Prop := b (ix2 n 0) = BitVec.ofNat 32 g

instance {N : Nat} (b : Ix2 N 1 → BitVec 32) (n : Fin N) (g : Nat) : Decidable (inGraph b n g) := by
  unfold inGraph; infer_instance

def poolSum {N H : Nat} (h : Ix2 N H → EReal) (b : Ix2 N 1 → BitVec 32) (g : Nat) (d : Fin H) : EReal :=
  ∑ n : Fin N, if inGraph b n g then h (ix2 n d) else 0

def poolCnt {N : Nat} (b : Ix2 N 1 → BitVec 32) (g : Nat) : EReal :=
  ∑ n : Fin N, if inGraph b n g then (1 : EReal) else 0

def poolOut {N H G : Nat} (h : Ix2 N H → EReal) (b : Ix2 N 1 → BitVec 32) (wfT : Ix2 H 1 → EReal) (bf : Ix2 1 1 → EReal) :
    Ix2 G 1 → EReal :=
  fun i => (∑ d : Fin H, Ideal.div (poolSum h b (i 0).val d) (max (poolCnt b (i 0).val) 1) * wfT (ix2 d 0)) + bf (ix2 0 0)

end Cert.GraphNet

end
-- ==== Proof.Val4Pay.lean ====
import proofs.«419359_j12352325943372_2_alg».proof.Proof.Gen.KernelIdeal.Skeleton
import proofs.«419359_j12352325943372_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
noncomputable section
open scoped BigOperators
namespace Cert.KernelIdeal.Val
open Idealize.ShloMosaic Idealize.ShloMosaic.ValueIdx Cert.GraphNet Cert.KernelIdeal Cert.KernelIdeal.Gen

theorem pay4_1_apply (j : S256x128.Idx) : Cert.KernelIdeal.Gen.k4_pay1 (F := Ideal) j = 0 := by
  unfold Cert.KernelIdeal.Gen.k4_pay1
  rw [shapeCast_self]
  exact Ideal.ofBits_zero_f32

theorem pay4_2_apply (j : S256x1.Idx) : Cert.KernelIdeal.Gen.k4_pay2 (F := Ideal) j = 0 := by
  unfold Cert.KernelIdeal.Gen.k4_pay2
  rw [shapeCast_self]
  exact Ideal.ofBits_zero_f32

theorem sitofp_extui_ofBool (b : Bool) :
    FloatOps.sitofp (F := Ideal) .f32 ((BitVec.ofBool b).setWidth 32) = if b then (1 : EReal) else 0 := by
  cases b
  · show (((((BitVec.ofBool false).setWidth 32).toInt : ℤ) : ℝ) : EReal) = _
    simp
  · show (((((BitVec.ofBool true).setWidth 32).toInt : ℤ) : ℝ) : EReal) = _
    simp

theorem pay4_3_apply (v6 : Vec Ideal S2000x1 .i32) (r : Fin 2000) (g : Fin 256) :
    Cert.KernelIdeal.Gen.k4_pay3 (F := Ideal) v6 (ix2 r g) = if v6 (ix2 r 0) = BitVec.ofNat 32 g.val then (1 : EReal) else 0 := by
  unfold Cert.KernelIdeal.Gen.k4_pay3
  rw [shapeCast_self, truncf_apply, sitofp_apply, extui_apply]
  show FloatOps.sitofp (F := Ideal) .f32 ((IntOp.cmpi .eq (broadcastTo S2000x256 v6 broadcasts_S2000x1_S2000x256 (ix2 r g))
      (iota Kind.tc S2000x256 32 [1] iota_S2000x256_d1_w32 (ix2 r g))).setWidth 32) = _
  rw [broadcastTo_apply v6 broadcasts_S2000x1_S2000x256 (ix2 r g) (ix2 r 0) (by
        intro a; match a with
        | ⟨0, _⟩ => rfl
        | ⟨1, _⟩ => rfl),
    iota_single_apply]
  show FloatOps.sitofp (F := Ideal) .f32 ((BitVec.ofBool (v6 (ix2 r 0) == BitVec.ofNat 32 g.val)).setWidth 32) = _
  rw [sitofp_extui_ofBool]
  by_cases h : v6 (ix2 r 0) = BitVec.ofNat 32 g.val
  · simp [h]
  · simp [h]

theorem lhs_k4_v16_0 (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q
theorem lhs_k4_v16_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide), dif_pos (show (1 : Fin S2000x256.rank) ∈ dot_S2000x256_S2000x128_S256x128_0_0_1_1_n_n.lhsNonContracting by decide)]
  rfl
theorem rhs_k4_v16_0 (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q
theorem rhs_k4_v16_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide), dif_pos (show (1 : Fin S2000x128.rank) ∈ dot_S2000x256_S2000x128_S256x128_0_0_1_1_n_n.rhsNonContracting by decide)]
  rfl

theorem pay4_4_apply (v3 : FVec Ideal S2000x128 .f32) (v6 : Vec Ideal S2000x1 .i32) (v15 : FVec Ideal S256x128 .f32) (g : Fin 256) (d : Fin 128) :
    Cert.KernelIdeal.Gen.k4_pay4 (F := Ideal) v3 v6 v15 (ix2 g d) = v15 (ix2 g d) + ∑ r : Fin 2000, if v6 (ix2 r 0) = BitVec.ofNat 32 g.val then v3 (ix2 r d) else 0 := by
  unfold Cert.KernelIdeal.Gen.k4_pay4
  rw [shapeCast_self, addf_apply]
  refine congrArg (v15 (ix2 g d) + ·) ?_
  refine (Ideal.matmul_constant_zero_apply dot_S2000x256_S2000x128_S256x128_0_0_1_1_n_n none _ _ (ix2 g d)).trans ?_
  rw [← Equiv.sum_comp (ValueIdx.contrEquiv1 dot_S2000x256_S2000x128_S256x128_0_0_1_1_n_n 2000 rfl rfl).symm]
  refine Finset.sum_congr rfl fun k _ => ?_
  have hk := ValueIdx.contrEquiv1_symm_val dot_S2000x256_S2000x128_S256x128_0_0_1_1_n_n 2000 rfl rfl k
  have el : dot_S2000x256_S2000x128_S256x128_0_0_1_1_n_n.lhsIdx (ix2 g d) ((ValueIdx.contrEquiv1 dot_S2000x256_S2000x128_S256x128_0_0_1_1_n_n 2000 rfl rfl).symm k) = ix2 k g := funext fun a => Fin.ext (by
    match a with
    | ⟨0, _⟩ => exact (lhs_k4_v16_0 _ _).trans hk
    | ⟨1, _⟩ => exact lhs_k4_v16_1 _ _)
  have er : dot_S2000x256_S2000x128_S256x128_0_0_1_1_n_n.rhsIdx (ix2 g d) ((ValueIdx.contrEquiv1 dot_S2000x256_S2000x128_S256x128_0_0_1_1_n_n 2000 rfl rfl).symm k) = ix2 k d := funext fun a => Fin.ext (by
    match a with
    | ⟨0, _⟩ => exact (rhs_k4_v16_0 _ _).trans hk
    | ⟨1, _⟩ => exact rhs_k4_v16_1 _ _)
  rw [el, er, pay4_3_apply, truncf_apply, shapeCast_self]
  by_cases h : v6 (ix2 k 0) = BitVec.ofNat 32 g.val
  · rw [if_pos h, if_pos h, one_mul]
  · rw [if_neg h, if_neg h, zero_mul]

theorem lhs_k4_v22_0 (i : S256x1.Idx) (q : dot_S2000x256_S2000x1_S256x1_0_0_1_1_n_n.contr.Idx) :
    (dot_S2000x256_S2000x1_S256x1_0_0_1_1_n_n.lhsIdx i q 0).val = (q ⟨0, by decide⟩).val :=
  dot_S2000x256_S2000x1_S256x1_0_0_1_1_n_n.lhsIdx_val_of_single rfl i q
theorem lhs_k4_v22_1 (i : S256x1.Idx) (q : dot_S2000x256_S2000x1_S256x1_0_0_1_1_n_n.contr.Idx) :
    (dot_S2000x256_S2000x1_S256x1_0_0_1_1_n_n.lhsIdx i q 1).val = (i 0).val := by
  unfold DotDims.lhsIdx
  rw [dif_neg (show ¬(1 : Fin S2000x256.rank) ∈ dot_S2000x256_S2000x1_S256x1_0_0_1_1_n_n.lhsBatch by decide), dif_pos (show (1 : Fin S2000x256.rank) ∈ dot_S2000x256_S2000x1_S256x1_0_0_1_1_n_n.lhsNonContracting by decide)]
  rfl
theorem rhs_k4_v22_0 (i : S256x1.Idx) (q : dot_S2000x256_S2000x1_S256x1_0_0_1_1_n_n.contr.Idx) :
    (dot_S2000x256_S2000x1_S256x1_0_0_1_1_n_n.rhsIdx i q 0).val = (q ⟨0, by decide⟩).val :=
  dot_S2000x256_S2000x1_S256x1_0_0_1_1_n_n.rhsIdx_val_of_single rfl i q
theorem rhs_k4_v22_1 (i : S256x1.Idx) (q : dot_S2000x256_S2000x1_S256x1_0_0_1_1_n_n.contr.Idx) :
    (dot_S2000x256_S2000x1_S256x1_0_0_1_1_n_n.rhsIdx i q 1).val = (i 1).val := by
  unfold DotDims.rhsIdx
  rw [dif_neg (show ¬(1 : Fin S2000x1.rank) ∈ dot_S2000x256_S2000x1_S256x1_0_0_1_1_n_n.rhsBatch by decide), dif_pos (show (1 : Fin S2000x1.rank) ∈ dot_S2000x256_S2000x1_S256x1_0_0_1_1_n_n.rhsNonContracting by decide)]
  rfl

theorem pay4_5_apply (v6 : Vec Ideal S2000x1 .i32) (v21 : FVec Ideal S256x1 .f32) (g : Fin 256) :
    Cert.KernelIdeal.Gen.k4_pay5 (F := Ideal) v6 v21 (ix2 g 0) = v21 (ix2 g 0) + ∑ r : Fin 2000, if v6 (ix2 r 0) = BitVec.ofNat 32 g.val then (1 : EReal) else 0 := by
  unfold Cert.KernelIdeal.Gen.k4_pay5
  rw [shapeCast_self, addf_apply]
  refine congrArg (v21 (ix2 g 0) + ·) ?_
  refine (Ideal.matmul_constant_zero_apply dot_S2000x256_S2000x1_S256x1_0_0_1_1_n_n none _ _ (ix2 g 0)).trans ?_
  rw [← Equiv.sum_comp (ValueIdx.contrEquiv1 dot_S2000x256_S2000x1_S256x1_0_0_1_1_n_n 2000 rfl rfl).symm]
  refine Finset.sum_congr rfl fun k _ => ?_
  have hk := ValueIdx.contrEquiv1_symm_val dot_S2000x256_S2000x1_S256x1_0_0_1_1_n_n 2000 rfl rfl k
  have el : dot_S2000x256_S2000x1_S256x1_0_0_1_1_n_n.lhsIdx (ix2 g 0) ((ValueIdx.contrEquiv1 dot_S2000x256_S2000x1_S256x1_0_0_1_1_n_n 2000 rfl rfl).symm k) = ix2 k g := funext fun a => Fin.ext (by
    match a with
    | ⟨0, _⟩ => exact (lhs_k4_v22_0 _ _).trans hk
    | ⟨1, _⟩ => exact lhs_k4_v22_1 _ _)
  rw [el, pay4_3_apply, broadcast_apply]
  show _ * Ideal.ofBits .bf16 0x3F80#16 = _
  rw [Ideal.ofBits_one_bf16, mul_one]

theorem lhs_k4_v40_0 (i : S256x1.Idx) (q : dot_S256x128_S128x1_S256x1_1_0_0_1_n_n.contr.Idx) :
    (dot_S256x128_S128x1_S256x1_1_0_0_1_n_n.lhsIdx i q 0).val = (i 0).val := by
  unfold DotDims.lhsIdx
  rw [dif_neg (show ¬(0 : Fin S256x128.rank) ∈ dot_S256x128_S128x1_S256x1_1_0_0_1_n_n.lhsBatch by decide), dif_pos (show (0 : Fin S256x128.rank) ∈ dot_S256x128_S128x1_S256x1_1_0_0_1_n_n.lhsNonContracting by decide)]
  rfl
theorem lhs_k4_v40_1 (i : S256x1.Idx) (q : dot_S256x128_S128x1_S256x1_1_0_0_1_n_n.contr.Idx) :
    (dot_S256x128_S128x1_S256x1_1_0_0_1_n_n.lhsIdx i q 1).val = (q ⟨0, by decide⟩).val :=
  dot_S256x128_S128x1_S256x1_1_0_0_1_n_n.lhsIdx_val_of_single rfl i q
theorem rhs_k4_v40_0 (i : S256x1.Idx) (q : dot_S256x128_S128x1_S256x1_1_0_0_1_n_n.contr.Idx) :
    (dot_S256x128_S128x1_S256x1_1_0_0_1_n_n.rhsIdx i q 0).val = (q ⟨0, by decide⟩).val :=
  dot_S256x128_S128x1_S256x1_1_0_0_1_n_n.rhsIdx_val_of_single rfl i q
theorem rhs_k4_v40_1 (i : S256x1.Idx) (q : dot_S256x128_S128x1_S256x1_1_0_0_1_n_n.contr.Idx) :
    (dot_S256x128_S128x1_S256x1_1_0_0_1_n_n.rhsIdx i q 1).val = (i 1).val := by
  unfold DotDims.rhsIdx
  rw [dif_neg (show ¬(1 : Fin S128x1.rank) ∈ dot_S256x128_S128x1_S256x1_1_0_0_1_n_n.rhsBatch by decide), dif_pos (show (1 : Fin S128x1.rank) ∈ dot_S256x128_S128x1_S256x1_1_0_0_1_n_n.rhsNonContracting by decide)]
  rfl

theorem pay4_6_apply (v30 : FVec Ideal S256x128 .f32) (v31 : FVec Ideal S256x1 .f32) (v37 : FVec Ideal S128x1 .f32) (v41 : FVec Ideal S1x1 .f32) (g : Fin 256) :
    Cert.KernelIdeal.Gen.k4_pay6 (F := Ideal) v30 v31 v37 v41 (ix2 g 0) = (∑ d : Fin 128, Ideal.div (v30 (ix2 g d)) (max (v31 (ix2 g 0)) 1) * v37 (ix2 d 0)) + v41 (ix2 0 0) := by
  unfold Cert.KernelIdeal.Gen.k4_pay6
  rw [addf_apply, shapeCast_self, shapeCast_self,
    broadcastTo_apply v41 broadcasts_S1x1_S256x1 (ix2 g 0) (ix2 0 0) (by
        intro a; match a with
        | ⟨0, _⟩ => rfl
        | ⟨1, _⟩ => rfl)]
  refine congrArg (· + v41 (ix2 0 0)) ?_
  refine (Ideal.matmul_constant_zero_apply dot_S256x128_S128x1_S256x1_1_0_0_1_n_n none _ _ (ix2 g 0)).trans ?_
  rw [← Equiv.sum_comp (ValueIdx.contrEquiv1 dot_S256x128_S128x1_S256x1_1_0_0_1_n_n 128 rfl rfl).symm]
  refine Finset.sum_congr rfl fun k _ => ?_
  have hk := ValueIdx.contrEquiv1_symm_val dot_S256x128_S128x1_S256x1_1_0_0_1_n_n 128 rfl rfl k
  have el : dot_S256x128_S128x1_S256x1_1_0_0_1_n_n.lhsIdx (ix2 g 0) ((ValueIdx.contrEquiv1 dot_S256x128_S128x1_S256x1_1_0_0_1_n_n 128 rfl rfl).symm k) = ix2 g k := funext fun a => Fin.ext (by
    match a with
    | ⟨0, _⟩ => exact lhs_k4_v40_0 _ _
    | ⟨1, _⟩ => exact (lhs_k4_v40_1 _ _).trans hk)
  have er : dot_S256x128_S128x1_S256x1_1_0_0_1_n_n.rhsIdx (ix2 g 0) ((ValueIdx.contrEquiv1 dot_S256x128_S128x1_S256x1_1_0_0_1_n_n 128 rfl rfl).symm k) = ix2 k 0 := funext fun a => Fin.ext (by
    match a with
    | ⟨0, _⟩ => exact (rhs_k4_v40_0 _ _).trans hk
    | ⟨1, _⟩ => exact rhs_k4_v40_1 _ _)
  rw [el, er, truncf_apply, truncf_apply, divf_apply,
    broadcastTo_apply _ broadcasts_S256x1_S256x128 (ix2 g k) (ix2 g 0) (by
        intro a; match a with
        | ⟨0, _⟩ => rfl
        | ⟨1, _⟩ => rfl),
    maximumf_apply, broadcast_apply]
  show Ideal.div (v30 (ix2 g k)) (max (v31 (ix2 g 0)) (Ideal.ofBits .f32 0x3F800000#32)) * v37 (ix2 k 0) = _
  rw [Ideal.ofBits_one_f32]
end Cert.KernelIdeal.Val
end
-- ==== Proof.Val4.lean ====
import proofs.«419359_j12352325943372_2_alg».proof.Proof.KI.R4
import proofs.«419359_j12352325943372_2_alg».proof.Proof.Val4Pay
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
open scoped BigOperators

namespace Cert.KernelIdeal.Val
open Idealize.ShloMosaic Idealize.ShloMosaic.ValueIdx Cert.GraphNet Cert.KernelIdeal Cert.KernelIdeal.Gen Cert.KernelIdeal.Frame
open Idealize.ShloMosaic.TcCoe Idealize.SL Idealize.SL.Sem
open Idealize.ShloMosaic.Pipeline (Dat Cfg Window)

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

def ext0 {M : Type*} [Zero M] (f : Fin 100000 → M) (k : ℕ) : M := if h : k < 100000 then f ⟨k, h⟩ else 0

theorem ext0_of_lt {M : Type*} [Zero M] (f : Fin 100000 → M) (k : ℕ) (h : k < 100000) : ext0 f k = f ⟨k, h⟩ := dif_pos h

theorem sum_ext0 {M : Type*} [AddCommMonoid M] (f : Fin 100000 → M) :
    ∑ k ∈ Finset.range 100000, ext0 f k = ∑ k : Fin 100000, f k := by
  rw [← Fin.sum_univ_eq_sum_range]
  exact Finset.sum_congr rfl fun k _ => ext0_of_lt f k.val k.isLt

theorem sum_range_block {M : Type*} [AddCommMonoid M] (f : ℕ → M) (t : ℕ) :
    ∑ k ∈ Finset.range (2000 * (t + 1)), f k = ∑ k ∈ Finset.range (2000 * t), f k + ∑ r : Fin 2000, f (2000 * t + r.val) := by
  rw [show 2000 * (t + 1) = 2000 * t + 2000 by ring, Finset.sum_range_add, Fin.sum_univ_eq_sum_range (fun x => f (2000 * t + x)) 2000]

def sumTerm (h : Ix2 100000 128 → EReal) (b : Ix2 100000 1 → BitVec 32) (g : ℕ) (d : Fin 128) (n : Fin 100000) : EReal :=
  if inGraph b n g then h (ix2 n d) else 0

def cntTerm (b : Ix2 100000 1 → BitVec 32) (g : ℕ) (n : Fin 100000) : EReal :=
  if inGraph b n g then (1 : EReal) else 0

section
variable (V : (c : Dev nD) → (b : Ref sig .tc) → Buf (Elt Ideal) ((c : Thread nD τ).loc b))

theorem iblk4_0_apply (c : Dev nD) (t : Fin cfg4.N) (r : Fin 2000) (d : Fin 128) (hb : 2000 * t.val + r.val < 100000) :
    iblk4 V c 0 t (ix2 r d) = (V c main_v43 : S100000x128.Idx → EReal) (ix2 ⟨2000 * t.val + r.val, hb⟩ d) := by
  obtain ⟨e0, e1, -⟩ := idx_facts4 t
  show (V c main_v43 : S100000x128.Idx → EReal) (((cfg4.win 0).blk t).view.emb (ix2 r d)) = _
  refine congrArg _ (funext fun a => Fin.ext ?_)
  match a with
  | ⟨0, _⟩ => show win4_0.index t (0 : Fin 2) * 2000 + 1 * r.val = 2000 * t.val + r.val; omega
  | ⟨1, _⟩ => show win4_0.index t (1 : Fin 2) * 128 + 1 * d.val = d.val; omega

theorem iblk4_1_apply (c : Dev nD) (t : Fin cfg4.N) (r : Fin 2000) (hb : 2000 * t.val + r.val < 100000) :
    iblk4 V c 1 t (ix2 r 0) = (V c main_v44 : S100000x1.Idx → BitVec 32) (ix2 ⟨2000 * t.val + r.val, hb⟩ 0) := by
  obtain ⟨-, -, e0, e1, -⟩ := idx_facts4 t
  show (V c main_v44 : S100000x1.Idx → BitVec 32) (((cfg4.win 1).blk t).view.emb (ix2 r 0)) = _
  refine congrArg _ (funext fun a => Fin.ext ?_)
  match a with
  | ⟨0, _⟩ => show win4_1.index t (0 : Fin 2) * 2000 + 1 * r.val = 2000 * t.val + r.val; omega
  | ⟨1, _⟩ => show win4_1.index t (1 : Fin 2) * 1 + 1 * 0 = 0; omega

theorem iblk4_2_apply (c : Dev nD) (t : Fin cfg4.N) (d : Fin 128) :
    iblk4 V c 2 t (ix2 d 0) = (V c main_v45 : S128x1.Idx → EReal) (ix2 d 0) := by
  obtain ⟨-, -, -, -, e0, e1, -⟩ := idx_facts4 t
  show (V c main_v45 : S128x1.Idx → EReal) (((cfg4.win 2).blk t).view.emb (ix2 d 0)) = _
  refine congrArg _ (funext fun a => Fin.ext ?_)
  match a with
  | ⟨0, _⟩ => show win4_2.index t (0 : Fin 2) * 128 + 1 * d.val = d.val; omega
  | ⟨1, _⟩ => show win4_2.index t (1 : Fin 2) * 1 + 1 * 0 = 0; omega

theorem iblk4_3_apply (c : Dev nD) (t : Fin cfg4.N) :
    iblk4 V c 3 t (ix2 0 0) = (V c main_v46 : S1x1.Idx → EReal) (ix2 0 0) := by
  obtain ⟨-, -, -, -, -, -, e0, e1, -⟩ := idx_facts4 t
  show (V c main_v46 : S1x1.Idx → EReal) (((cfg4.win 3).blk t).view.emb (ix2 0 0)) = _
  refine congrArg _ (funext fun a => Fin.ext ?_)
  match a with
  | ⟨0, _⟩ => show win4_3.index t (0 : Fin 2) * 1 + 1 * 0 = 0; omega
  | ⟨1, _⟩ => show win4_3.index t (1 : Fin 2) * 1 + 1 * 0 = 0; omega

theorem sums_step (c : Dev nD) (t : Fin cfg4.N) (prev : FVec Ideal S256x128 .f32) (g : Fin 256) (d : Fin 128)
    (hprev : prev (ix2 g d) = ∑ k ∈ Finset.range (2000 * t.val), ext0 (sumTerm (V c main_v43) (V c main_v44) g.val d) k) :
    k4_pay4 (F := Ideal) (iblk4 V c 0 t) (iblk4 V c 1 t) prev (ix2 g d)
      = ∑ k ∈ Finset.range (2000 * (t.val + 1)), ext0 (sumTerm (V c main_v43) (V c main_v44) g.val d) k := by
  have ht : t.val < 50 := t.isLt
  refine (pay4_4_apply _ _ _ g d).trans ?_
  rw [hprev, sum_range_block]
  refine congrArg (_ + ·) (Finset.sum_congr rfl fun r _ => ?_)
  have hb : 2000 * t.val + r.val < 100000 := by have := r.isLt; omega
  rw [ext0_of_lt _ _ hb, iblk4_1_apply V c t r hb, iblk4_0_apply V c t r d hb]
  rfl

theorem cnts_step (c : Dev nD) (t : Fin cfg4.N) (prev : FVec Ideal S256x1 .f32) (g : Fin 256)
    (hprev : prev (ix2 g 0) = ∑ k ∈ Finset.range (2000 * t.val), ext0 (cntTerm (V c main_v44) g.val) k) :
    k4_pay5 (F := Ideal) (iblk4 V c 1 t) prev (ix2 g 0)
      = ∑ k ∈ Finset.range (2000 * (t.val + 1)), ext0 (cntTerm (V c main_v44) g.val) k := by
  have ht : t.val < 50 := t.isLt
  refine (pay4_5_apply _ _ g).trans ?_
  rw [hprev, sum_range_block]
  refine congrArg (_ + ·) (Finset.sum_congr rfl fun r _ => ?_)
  have hb : 2000 * t.val + r.val < 100000 := by have := r.isLt; omega
  rw [ext0_of_lt _ _ hb, iblk4_1_apply V c t r hb]
  rfl

theorem acc4_sums (c : Dev nD) : ∀ (n : ℕ) (hn : n < cfg4.N) (g : Fin 256) (d : Fin 128),
    (acc4 V c n hn).1 (ix2 g d) = ∑ k ∈ Finset.range (2000 * (n + 1)), ext0 (sumTerm (V c main_v43) (V c main_v44) g.val d) k
  | 0, hn, g, d => by
    show k4_pay4 (F := Ideal) (iblk4 V c 0 ⟨0, hn⟩) (iblk4 V c 1 ⟨0, hn⟩) (k4_pay1 (F := Ideal)) (ix2 g d) = _
    exact sums_step V c ⟨0, hn⟩ _ g d (by rw [pay4_1_apply]; simp)
  | n + 1, hn, g, d => by
    show k4_pay4 (F := Ideal) (iblk4 V c 0 ⟨n + 1, hn⟩) (iblk4 V c 1 ⟨n + 1, hn⟩) (acc4 V c n (Nat.lt_of_succ_lt hn)).1 (ix2 g d) = _
    exact sums_step V c ⟨n + 1, hn⟩ _ g d (acc4_sums c n (Nat.lt_of_succ_lt hn) g d)

theorem acc4_cnts (c : Dev nD) : ∀ (n : ℕ) (hn : n < cfg4.N) (g : Fin 256),
    (acc4 V c n hn).2 (ix2 g 0) = ∑ k ∈ Finset.range (2000 * (n + 1)), ext0 (cntTerm (V c main_v44) g.val) k
  | 0, hn, g => by
    show k4_pay5 (F := Ideal) (iblk4 V c 1 ⟨0, hn⟩) (k4_pay2 (F := Ideal)) (ix2 g 0) = _
    exact cnts_step V c ⟨0, hn⟩ _ g (by rw [pay4_2_apply]; simp)
  | n + 1, hn, g => by
    show k4_pay5 (F := Ideal) (iblk4 V c 1 ⟨n + 1, hn⟩) (acc4 V c n (Nat.lt_of_succ_lt hn)).2 (ix2 g 0) = _
    exact cnts_step V c ⟨n + 1, hn⟩ _ g (acc4_cnts c n (Nat.lt_of_succ_lt hn) g)

theorem acc4_last_sums (c : Dev nD) (hn : 49 < cfg4.N) (g : Fin 256) (d : Fin 128) :
    (acc4 V c 49 hn).1 (ix2 g d) = poolSum (V c main_v43 : S100000x128.Idx → EReal) (V c main_v44 : S100000x1.Idx → BitVec 32) g.val d := by
  rw [acc4_sums V c 49 hn g d]
  exact sum_ext0 _

theorem acc4_last_cnts (c : Dev nD) (hn : 49 < cfg4.N) (g : Fin 256) :
    (acc4 V c 49 hn).2 (ix2 g 0) = poolCnt (V c main_v44 : S100000x1.Idx → BitVec 32) g.val := by
  rw [acc4_cnts V c 49 hn g]
  exact sum_ext0 _

theorem poolOut_apply (h : Ix2 100000 128 → EReal) (b : Ix2 100000 1 → BitVec 32) (wfT : Ix2 128 1 → EReal) (bf : Ix2 1 1 → EReal) (g : Fin 256) :
    (poolOut h b wfT bf : Ix2 256 1 → EReal) (ix2 g 0)
      = (∑ d : Fin 128, Ideal.div (poolSum h b g.val d) (max (poolCnt b g.val) 1) * wfT (ix2 d 0)) + bf (ix2 0 0) := rfl

theorem out4_4_last (c : Dev nD) (t : Fin cfg4.N) (ht : t.val = 49) (g : Fin 256) :
    out4_4 V c t (ix2 g 0)
      = (poolOut (V c main_v43 : S100000x128.Idx → EReal) (V c main_v44 : S100000x1.Idx → BitVec 32) (V c main_v45 : S128x1.Idx → EReal) (V c main_v46 : S1x1.Idx → EReal) : S256x1.Idx → EReal) (ix2 g 0) := by
  obtain ⟨tv, tlt⟩ := t
  have ht' : tv = 49 := ht
  subst ht'
  show k4_pay6 (F := Ideal) (acc4 V c 49 tlt).1 (acc4 V c 49 tlt).2 (iblk4 V c 2 ⟨49, tlt⟩) (iblk4 V c 3 ⟨49, tlt⟩) (ix2 g 0) = _
  refine (pay4_6_apply _ _ _ _ g).trans ?_
  refine Eq.trans ?_ (poolOut_apply _ _ _ _ g).symm
  rw [acc4_last_cnts V c tlt g, iblk4_3_apply V c ⟨49, tlt⟩]
  refine congrArg (· + (V c main_v46 : S1x1.Idx → EReal) (ix2 0 0)) (Finset.sum_congr rfl fun d _ => ?_)
  rw [acc4_last_sums V c tlt g d, iblk4_2_apply V c ⟨49, tlt⟩ d]

theorem flushed4_eq (c : Dev nD) (t : Fin cfg4.N) (hf : (cfg4.win 4).flush t = true) :
    (dat4 (F := Ideal) V c).flushed 4 t = ((cfg4.win 4).blk t).view.read (Elt Ideal)
      (poolOut (V c main_v43 : S100000x128.Idx → EReal) (V c main_v44 : S100000x1.Idx → BitVec 32) (V c main_v45 : S128x1.Idx → EReal) (V c main_v46 : S1x1.Idx → EReal) : S256x1.Idx → EReal) := by
  have ht : t.val = 49 := by
    have h := (flush4_4 t).mp hf
    have hlt : t.val < 50 := t.isLt
    omega
  show (cfg4.win 4).cut (grid4.coords t) ((dat4 (F := Ideal) V c).after 4 t) = _
  rw [after4_4]
  obtain ⟨-, -, -, -, -, -, -, -, e0, e1⟩ := idx_facts4 t
  funext j
  have h0 : (j 0).val < 256 := (j 0).isLt
  have h1 : (j 1).val < 1 := (j 1).isLt
  have hx : ((cfg4.win 4).xinj (grid4.coords t) j : S256x1.Idx) = ix2 ⟨(j 0).val, h0⟩ 0 := funext fun a => Fin.ext (by
    match a with
    | ⟨0, _⟩ => rfl
    | ⟨1, _⟩ => show (j 1).val = 0; omega)
  have he : (((cfg4.win 4).blk t).view.emb j : S256x1.Idx) = ix2 ⟨(j 0).val, h0⟩ 0 := funext fun a => Fin.ext (by
    match a with
    | ⟨0, _⟩ => show win4_4.index t (0 : Fin 2) * 256 + 1 * (j 0).val = (j 0).val; omega
    | ⟨1, _⟩ => show win4_4.index t (1 : Fin 2) * 1 + 1 * (j 1).val = 0; omega)
  exact (congrArg (out4_4 V c t) hx).trans ((out4_4_last V c t ht ⟨(j 0).val, h0⟩).trans (congrArg _ he.symm))

theorem mem_blk4 (t : Fin cfg4.N) (i : S256x1.Idx) :
    i ∈ ((cfg4.win 4).blk t).view.set ↔ ∀ a : Fin 2, win4_4.index t a * S256x1.size a ≤ (i a).val ∧ (i a).val < win4_4.index t a * S256x1.size a + S256x1.size a := by
  show i ∈ ((View.whole main_v47).slice (win4_4.rect t)).set ↔ _
  rw [View.set_slice_whole, Rect.mem_set_unit]
  exact Iff.rfl

theorem final4 (c : Dev nD) :
    (Cert.KernelIdeal.Frame.dat4 (F := Ideal) V c).arrAt 4 cfg4.N = (Cert.GraphNet.poolOut (V c main_v43) (V c main_v44) (V c main_v45) (V c main_v46) : S256x1.Idx → EReal) := by
  refine (dat4 (F := Ideal) V c).arrAt_eq_of_cover 4 _ (fun t hf => flushed4_eq V c t hf) fun i => ?_
  have hlast : (49 : ℕ) < cfg4.N := by decide
  refine ⟨⟨49, hlast⟩, (flush4_4 ⟨49, hlast⟩).mpr rfl, ?_⟩
  obtain ⟨-, -, -, -, -, -, -, -, e0, e1⟩ := idx_facts4 ⟨49, hlast⟩
  have h0 : (i 0).val < 256 := (i 0).isLt
  have h1 : (i 1).val < 1 := (i 1).isLt
  refine (mem_blk4 ⟨49, hlast⟩ i).mpr fun a => ?_
  match a with
  | ⟨0, _⟩ => show win4_4.index ⟨49, hlast⟩ (0 : Fin 2) * 256 ≤ (i 0).val ∧ (i 0).val < win4_4.index ⟨49, hlast⟩ (0 : Fin 2) * 256 + 256; omega
  | ⟨1, _⟩ => show win4_4.index ⟨49, hlast⟩ (1 : Fin 2) * 1 ≤ (i 1).val ∧ (i 1).val < win4_4.index ⟨49, hlast⟩ (1 : Fin 2) * 1 + 1; omega

end
end Cert.KernelIdeal.Val
end
-- ==== Proof.KI.HostGlue.lean ====
import proofs.«419359_j12352325943372_2_alg».proof.Proof.Gen.KernelIdeal.Launch
import Idealize.ShloMosaic.Lib.StableHlo.Run

noncomputable section

namespace Cert.KernelIdeal.Frame

open Cert.KernelIdeal Cert.KernelIdeal.Gen Idealize.ShloMosaic Idealize.ShloMosaic.TcCoe Idealize.SL.Sem Idealize.ShloMosaic.StableHlo

variable {F : FTy → Type} [FloatOps F]

section
variable (W : Valuation τ sig (Elt F))

theorem glue0_v1 : (StableHlo.after hostOps0 W (Proc.devRef .tc main_v1) : (⟨S1600000, .i32⟩ : BufTy).Contents (Elt F)) =
    (shapeCast S1600000 (extractStridedSlice S1x1600000 ![0, 0] (W (Proc.devRef .tc main_arg1) : (⟨S2x1600000, .i32⟩ : BufTy).Contents (Elt F)) slices_S2x1600000_S1x1600000_0_0) shapeCasts_S1x1600000_S1600000) := by
  show StableHlo.after hostOps0 _ (Proc.devRef .tc main_v1) = _; after_results <;> rfl

theorem glue0_v3 : (StableHlo.after hostOps0 W (Proc.devRef .tc main_v3) : (⟨S1600000, .i32⟩ : BufTy).Contents (Elt F)) =
    (shapeCast S1600000 (extractStridedSlice S1x1600000 ![1, 0] (W (Proc.devRef .tc main_arg1) : (⟨S2x1600000, .i32⟩ : BufTy).Contents (Elt F)) slices_S2x1600000_S1x1600000_1_0) shapeCasts_S1x1600000_S1600000) := by
  show StableHlo.after hostOps0 _ (Proc.devRef .tc main_v3) = _; after_results <;> rfl

theorem glue0_v11 : (StableHlo.after hostOps0 W (Proc.devRef .tc main_v11) : (⟨S1600000x64, .bf16⟩ : BufTy).Contents (Elt F)) =
    Host.gather gather_S100000x64_S1600000x1_S1600000x64_1_0_n_n_0_1_164 (truncf .bf16 (W (Proc.devRef .tc main_arg0) : (⟨S100000x64, .f32⟩ : BufTy).Contents (Elt F)) bitsLt_bf16_f32) (broadcastInDim S1600000x1 ![0] bcast_S1600000_S1600000x1_0 (select (cmpi .slt (shapeCast S1600000 (extractStridedSlice S1x1600000 ![0, 0] (W (Proc.devRef .tc main_arg1) : (⟨S2x1600000, .i32⟩ : BufTy).Contents (Elt F)) slices_S2x1600000_S1x1600000_0_0) shapeCasts_S1x1600000_S1600000) (broadcastInDim S1600000 ![] bcast_S_S1600000 (constantI S_ 32 0#32))) (addi (shapeCast S1600000 (extractStridedSlice S1x1600000 ![0, 0] (W (Proc.devRef .tc main_arg1) : (⟨S2x1600000, .i32⟩ : BufTy).Contents (Elt F)) slices_S2x1600000_S1x1600000_0_0) shapeCasts_S1x1600000_S1600000) (broadcastInDim S1600000 ![] bcast_S_S1600000 (constantI S_ 32 100000#32))) (shapeCast S1600000 (extractStridedSlice S1x1600000 ![0, 0] (W (Proc.devRef .tc main_arg1) : (⟨S2x1600000, .i32⟩ : BufTy).Contents (Elt F)) slices_S2x1600000_S1x1600000_0_0) shapeCasts_S1x1600000_S1600000))) := by
  show StableHlo.after hostOps0 _ (Proc.devRef .tc main_v11) = _; after_results <;> rfl

theorem glue0_v12 : (StableHlo.after hostOps0 W (Proc.devRef .tc main_v12) : (⟨S16x64, .f32⟩ : BufTy).Contents (Elt F)) =
    transpose S16x64 [1, 0] (W (Proc.devRef .tc main_arg4) : (⟨S64x16, .f32⟩ : BufTy).Contents (Elt F)) transposes_S64x16_S16x64_1_0 := by
  show StableHlo.after hostOps0 _ (Proc.devRef .tc main_v12) = _; after_results <;> rfl

theorem glue0_v13 : (StableHlo.after hostOps0 W (Proc.devRef .tc main_v13) : (⟨S1x64, .f32⟩ : BufTy).Contents (Elt F)) =
    shapeCast S1x64 (W (Proc.devRef .tc main_arg5) : (⟨S64, .f32⟩ : BufTy).Contents (Elt F)) shapeCasts_S64_S1x64 := by
  show StableHlo.after hostOps0 _ (Proc.devRef .tc main_v13) = _; after_results <;> rfl

theorem glue1_v18 : (StableHlo.after hostOps1 W (Proc.devRef .tc main_v18) : (⟨S100000x64, .f32⟩ : BufTy).Contents (Elt F)) =
    Host.scatterAdd scatter_S100000x64_S1600000x1_S1600000x64_1_0_0_1 (broadcastInDim S100000x64 ![] bcast_S_S100000x64 (constant (F := F) S_ .f32 0x00000000#32)) (broadcastInDim S1600000x1 ![0] bcast_S1600000_S1600000x1_0 (W (Proc.devRef .tc main_v3) : (⟨S1600000, .i32⟩ : BufTy).Contents (Elt F))) (extf .f32 (W (Proc.devRef .tc main_v14) : (⟨S1600000x64, .bf16⟩ : BufTy).Contents (Elt F)) bitsLt_bf16_f32) := by
  show StableHlo.after hostOps1 _ (Proc.devRef .tc main_v18) = _; after_results <;> rfl

theorem glue1_v19 : (StableHlo.after hostOps1 W (Proc.devRef .tc main_v19) : (⟨S64x128, .f32⟩ : BufTy).Contents (Elt F)) =
    transpose S64x128 [1, 0] (W (Proc.devRef .tc main_arg6) : (⟨S128x64, .f32⟩ : BufTy).Contents (Elt F)) transposes_S128x64_S64x128_1_0 := by
  show StableHlo.after hostOps1 _ (Proc.devRef .tc main_v19) = _; after_results <;> rfl

theorem glue1_v20 : (StableHlo.after hostOps1 W (Proc.devRef .tc main_v20) : (⟨S1x128, .f32⟩ : BufTy).Contents (Elt F)) =
    shapeCast S1x128 (W (Proc.devRef .tc main_arg7) : (⟨S128, .f32⟩ : BufTy).Contents (Elt F)) shapeCasts_S128_S1x128 := by
  show StableHlo.after hostOps1 _ (Proc.devRef .tc main_v20) = _; after_results <;> rfl

theorem glue1_v21 : (StableHlo.after hostOps1 W (Proc.devRef .tc main_v21) : (⟨S128x128, .f32⟩ : BufTy).Contents (Elt F)) =
    transpose S128x128 [1, 0] (W (Proc.devRef .tc main_arg8) : (⟨S128x128, .f32⟩ : BufTy).Contents (Elt F)) transposes_S128x128_S128x128_1_0 := by
  show StableHlo.after hostOps1 _ (Proc.devRef .tc main_v21) = _; after_results <;> rfl

theorem glue1_v22 : (StableHlo.after hostOps1 W (Proc.devRef .tc main_v22) : (⟨S1x128, .f32⟩ : BufTy).Contents (Elt F)) =
    shapeCast S1x128 (W (Proc.devRef .tc main_arg9) : (⟨S128, .f32⟩ : BufTy).Contents (Elt F)) shapeCasts_S128_S1x128 := by
  show StableHlo.after hostOps1 _ (Proc.devRef .tc main_v22) = _; after_results <;> rfl

theorem glue2_v31 : (StableHlo.after hostOps2 W (Proc.devRef .tc main_v31) : (⟨S1600000x128, .bf16⟩ : BufTy).Contents (Elt F)) =
    Host.gather gather_S100000x128_S1600000x1_S1600000x128_1_0_n_n_0_1_1128 (truncf .bf16 (W (Proc.devRef .tc main_v23) : (⟨S100000x128, .f32⟩ : BufTy).Contents (Elt F)) bitsLt_bf16_f32) (broadcastInDim S1600000x1 ![0] bcast_S1600000_S1600000x1_0 (select (cmpi .slt (W (Proc.devRef .tc main_v1) : (⟨S1600000, .i32⟩ : BufTy).Contents (Elt F)) (broadcastInDim S1600000 ![] bcast_S_S1600000 (constantI S_ 32 0#32))) (addi (W (Proc.devRef .tc main_v1) : (⟨S1600000, .i32⟩ : BufTy).Contents (Elt F)) (broadcastInDim S1600000 ![] bcast_S_S1600000 (constantI S_ 32 100000#32))) (W (Proc.devRef .tc main_v1) : (⟨S1600000, .i32⟩ : BufTy).Contents (Elt F)))) := by
  show StableHlo.after hostOps2 _ (Proc.devRef .tc main_v31) = _; after_results <;> rfl

theorem glue2_v32 : (StableHlo.after hostOps2 W (Proc.devRef .tc main_v32) : (⟨S16x128, .f32⟩ : BufTy).Contents (Elt F)) =
    transpose S16x128 [1, 0] (W (Proc.devRef .tc main_arg10) : (⟨S128x16, .f32⟩ : BufTy).Contents (Elt F)) transposes_S128x16_S16x128_1_0 := by
  show StableHlo.after hostOps2 _ (Proc.devRef .tc main_v32) = _; after_results <;> rfl

theorem glue2_v33 : (StableHlo.after hostOps2 W (Proc.devRef .tc main_v33) : (⟨S1x128, .f32⟩ : BufTy).Contents (Elt F)) =
    shapeCast S1x128 (W (Proc.devRef .tc main_arg11) : (⟨S128, .f32⟩ : BufTy).Contents (Elt F)) shapeCasts_S128_S1x128 := by
  show StableHlo.after hostOps2 _ (Proc.devRef .tc main_v33) = _; after_results <;> rfl

theorem glue3_v38 : (StableHlo.after hostOps3 W (Proc.devRef .tc main_v38) : (⟨S100000x128, .f32⟩ : BufTy).Contents (Elt F)) =
    Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 (W (Proc.devRef .tc main_v3) : (⟨S1600000, .i32⟩ : BufTy).Contents (Elt F))) (extf .f32 (W (Proc.devRef .tc main_v34) : (⟨S1600000x128, .bf16⟩ : BufTy).Contents (Elt F)) bitsLt_bf16_f32) := by
  show StableHlo.after hostOps3 _ (Proc.devRef .tc main_v38) = _; after_results <;> rfl

theorem glue3_v39 : (StableHlo.after hostOps3 W (Proc.devRef .tc main_v39) : (⟨S128x128, .f32⟩ : BufTy).Contents (Elt F)) =
    transpose S128x128 [1, 0] (W (Proc.devRef .tc main_arg12) : (⟨S128x128, .f32⟩ : BufTy).Contents (Elt F)) transposes_S128x128_S128x128_1_0 := by
  show StableHlo.after hostOps3 _ (Proc.devRef .tc main_v39) = _; after_results <;> rfl

theorem glue3_v40 : (StableHlo.after hostOps3 W (Proc.devRef .tc main_v40) : (⟨S1x128, .f32⟩ : BufTy).Contents (Elt F)) =
    shapeCast S1x128 (W (Proc.devRef .tc main_arg13) : (⟨S128, .f32⟩ : BufTy).Contents (Elt F)) shapeCasts_S128_S1x128 := by
  show StableHlo.after hostOps3 _ (Proc.devRef .tc main_v40) = _; after_results <;> rfl

theorem glue3_v41 : (StableHlo.after hostOps3 W (Proc.devRef .tc main_v41) : (⟨S128x128, .f32⟩ : BufTy).Contents (Elt F)) =
    transpose S128x128 [1, 0] (W (Proc.devRef .tc main_arg14) : (⟨S128x128, .f32⟩ : BufTy).Contents (Elt F)) transposes_S128x128_S128x128_1_0 := by
  show StableHlo.after hostOps3 _ (Proc.devRef .tc main_v41) = _; after_results <;> rfl

theorem glue3_v42 : (StableHlo.after hostOps3 W (Proc.devRef .tc main_v42) : (⟨S1x128, .f32⟩ : BufTy).Contents (Elt F)) =
    shapeCast S1x128 (W (Proc.devRef .tc main_arg15) : (⟨S128, .f32⟩ : BufTy).Contents (Elt F)) shapeCasts_S128_S1x128 := by
  show StableHlo.after hostOps3 _ (Proc.devRef .tc main_v42) = _; after_results <;> rfl

theorem glue4_v44 : (StableHlo.after hostOps4 W (Proc.devRef .tc main_v44) : (⟨S100000x1, .i32⟩ : BufTy).Contents (Elt F)) =
    shapeCast S100000x1 (W (Proc.devRef .tc main_arg3) : (⟨S100000, .i32⟩ : BufTy).Contents (Elt F)) shapeCasts_S100000_S100000x1 := by
  show StableHlo.after hostOps4 _ (Proc.devRef .tc main_v44) = _; after_results <;> rfl

theorem glue4_v45 : (StableHlo.after hostOps4 W (Proc.devRef .tc main_v45) : (⟨S128x1, .f32⟩ : BufTy).Contents (Elt F)) =
    transpose S128x1 [1, 0] (W (Proc.devRef .tc main_arg16) : (⟨S1x128, .f32⟩ : BufTy).Contents (Elt F)) transposes_S1x128_S128x1_1_0 := by
  show StableHlo.after hostOps4 _ (Proc.devRef .tc main_v45) = _; after_results <;> rfl

theorem glue4_v46 : (StableHlo.after hostOps4 W (Proc.devRef .tc main_v46) : (⟨S1x1, .f32⟩ : BufTy).Contents (Elt F)) =
    shapeCast S1x1 (W (Proc.devRef .tc main_arg17) : (⟨S1, .f32⟩ : BufTy).Contents (Elt F)) shapeCasts_S1_S1x1 := by
  show StableHlo.after hostOps4 _ (Proc.devRef .tc main_v46) = _; after_results <;> rfl

end

end Cert.KernelIdeal.Frame

end
-- ==== Proof.Val0Pay.lean ====
import proofs.«419359_j12352325943372_2_alg».proof.Proof.Gen.KernelIdeal.Skeleton
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.GraphNet Cert.KernelIdeal
open Cert.KernelIdeal.Facts₀

theorem lhs_dot0_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs_dot0_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem rhs_dot0_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem rhs_dot0_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

theorem matmul0_apply (l : FVec Ideal S10000x16 .bf16) (r : FVec Ideal S16x64 .bf16) (p : Fin 10000) (q : Fin 64) :
    matmul (F := Ideal) dot_S10000x16_S16x64_S10000x64_1_0_0_1_n_n none l r (constant (F := Ideal) S10000x64 .f32 0x00000000#32) (ix2 p q)
      = ∑ k : Fin 16, l (ix2 p k) * r (ix2 k q) := by
  simp only [matmul]
  rw [Ideal.matmul_constant_zero_apply, ← Equiv.sum_comp (ValueIdx.contrEquiv1 dot_S10000x16_S16x64_S10000x64_1_0_0_1_n_n 16 rfl rfl).symm]
  refine Finset.sum_congr rfl fun k _ => ?_
  have hk := ValueIdx.contrEquiv1_symm_val dot_S10000x16_S16x64_S10000x64_1_0_0_1_n_n 16 rfl rfl k
  have el : dot_S10000x16_S16x64_S10000x64_1_0_0_1_n_n.lhsIdx (ix2 p q) ((ValueIdx.contrEquiv1 dot_S10000x16_S16x64_S10000x64_1_0_0_1_n_n 16 rfl rfl).symm k) = ix2 p k := funext fun a => Fin.ext (by
    match a with
    | ⟨0, _⟩ => exact lhs_dot0_0 _ _
    | ⟨1, _⟩ => exact (lhs_dot0_1 _ _).trans hk)
  have er : dot_S10000x16_S16x64_S10000x64_1_0_0_1_n_n.rhsIdx (ix2 p q) ((ValueIdx.contrEquiv1 dot_S10000x16_S16x64_S10000x64_1_0_0_1_n_n 16 rfl rfl).symm k) = ix2 k q := funext fun a => Fin.ext (by
    match a with
    | ⟨0, _⟩ => exact (rhs_dot0_0 _ _).trans hk
    | ⟨1, _⟩ => exact rhs_dot0_1 _ _)
  rw [el, er]

theorem bias0_apply (b : FVec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

theorem pay0_eq (v0 : FVec Ideal S10000x16 .f32) (v2 : FVec Ideal S16x64 .f32) (v6 : FVec Ideal S10000x64 .bf16)
    (v10 : FVec Ideal S1x64 .f32) :
    Cert.KernelIdeal.Gen.k0_pay1 (F := Ideal) v0 v2 v6 v10 = Cert.GraphNet.edgeMsg v6 v0 v2 v10 := by
  funext j
  obtain ⟨p, q, rfl⟩ : ∃ (p : Fin 10000) (q : Fin 64), j = ix2 p q := ⟨j 0, j 1, eq_ix2 j⟩
  unfold Cert.KernelIdeal.Gen.k0_pay1 Cert.GraphNet.edgeMsg
  simp only [shapeCast_self]
  rw [truncf_apply, maximumf_apply, addf_apply, addf_apply, extf_apply, broadcast_apply, bias0_apply, matmul0_apply]
  simp only [truncf_apply]
  exact congrArg (max _) Ideal.ofBits_zero_f32

end Cert.KernelIdeal.Val

end
-- ==== Proof.Val0.lean ====
import proofs.«419359_j12352325943372_2_alg».proof.Proof.KI.R0
import proofs.«419359_j12352325943372_2_alg».proof.Proof.Val0Pay
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx Cert.GraphNet
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

theorem edgeMsg_block0 (xs : S1600000x64.Idx → EReal) (ea : S1600000x16.Idx → EReal) (ewT : S16x64.Idx → EReal) (eb : S1x64.Idx → EReal)
    (bx : S10000x64.Idx → EReal) (be : S10000x16.Idx → EReal) (bw : S16x64.Idx → EReal) (bb : S1x64.Idx → EReal)
    (n : Nat) (j : S10000x64.Idx) (i : S1600000x64.Idx)
    (hi0 : (i 0).val = n * 10000 + (j 0).val) (hi1 : (i 1).val = (j 1).val)
    (hx : ∀ (y : S10000x64.Idx) (i : S1600000x64.Idx), (i 0).val = n * 10000 + (y 0).val → (i 1).val = (y 1).val → bx y = xs i)
    (he : ∀ (y : S10000x16.Idx) (i : S1600000x16.Idx), (i 0).val = n * 10000 + (y 0).val → (i 1).val = (y 1).val → be y = ea i)
    (hw : bw = ewT) (hb : bb = eb) :
    edgeMsg bx be bw bb j = edgeMsg xs ea ewT eb i := by
  subst hw; subst hb
  unfold edgeMsg
  have e1 : (j 1 : Fin 64) = i 1 := Fin.ext hi1.symm
  rw [hx j i hi0 hi1, e1]
  refine congrArg (fun s => max ((xs i + s) + bb (ix2 0 (i 1))) 0) (Finset.sum_congr rfl fun k _ => ?_)
  rw [he (ix2 (j 0) k) (ix2 (i 0) k) hi0 rfl]

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem blk0_0 (c : Dev nD) (t : Fin cfg0.N) (y : S10000x64.Idx) (i : S1600000x64.Idx)
    (h0 : (i 0).val = t.val * 10000 + (y 0).val) (h1 : (i 1).val = (y 1).val) :
    (iblk0 V c 0 t : S10000x64.Idx → EReal) y = (V c main_v11 : S1600000x64.Idx → EReal) i := by
  obtain ⟨e0, e1, -⟩ := idx_facts0 t
  show V c main_v11 (((cfg0.win 0).blk t).view.emb y) = V c main_v11 i
  refine congrArg (V c main_v11) (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

theorem blk0_1 (c : Dev nD) (t : Fin cfg0.N) (y : S10000x16.Idx) (i : S1600000x16.Idx)
    (h0 : (i 0).val = t.val * 10000 + (y 0).val) (h1 : (i 1).val = (y 1).val) :
    (iblk0 V c 1 t : S10000x16.Idx → EReal) y = (V c main_arg2 : S1600000x16.Idx → EReal) i := by
  obtain ⟨-, -, e0, e1, -⟩ := idx_facts0 t
  show V c main_arg2 (((cfg0.win 1).blk t).view.emb y) = V c main_arg2 i
  refine congrArg (V c main_arg2) (funext fun a => Fin.ext ?_)
  match a with
  | ⟨0, _⟩ => show win0_1.index t (0 : Fin 2) * 10000 + 1 * (y 0).val = (i 0).val; omega
  | ⟨1, _⟩ => show win0_1.index t (1 : Fin 2) * 16 + 1 * (y 1).val = (i 1).val; omega

theorem blk0_2 (c : Dev nD) (t : Fin cfg0.N) :
    (iblk0 V c 2 t : S16x64.Idx → EReal) = (V c main_v12 : S16x64.Idx → EReal) := by
  obtain ⟨-, -, -, -, e0, e1, -⟩ := idx_facts0 t
  funext y
  show V c main_v12 (((cfg0.win 2).blk t).view.emb y) = V c main_v12 y
  refine congrArg (V c main_v12) (funext fun a => Fin.ext ?_)
  match a with
  | ⟨0, _⟩ => show win0_2.index t (0 : Fin 2) * 16 + 1 * (y 0).val = (y 0).val; omega
  | ⟨1, _⟩ => show win0_2.index t (1 : Fin 2) * 64 + 1 * (y 1).val = (y 1).val; omega

theorem blk0_3 (c : Dev nD) (t : Fin cfg0.N) :
    (iblk0 V c 3 t : S1x64.Idx → EReal) = (V c main_v13 : S1x64.Idx → EReal) := by
  obtain ⟨-, -, -, -, -, -, e0, e1, -⟩ := idx_facts0 t
  funext y
  show V c main_v13 (((cfg0.win 3).blk t).view.emb y) = V c main_v13 y
  refine congrArg (V c main_v13) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem flushed0_eq (c : Dev nD) (t : Fin cfg0.N) :
    (dat0 (F := Ideal) V c).flushed 4 t = ((cfg0.win 4).blk t).view.read (Elt Ideal)
      (edgeMsg (V c main_v11) (V c main_arg2) (V c main_v12) (V c main_v13) : S1600000x64.Idx → EReal) := by
  show (cfg0.win 4).cut (grid0.coords t) ((dat0 (F := Ideal) V c).after 4 t) = _
  rw [after0_4]
  unfold out0_4
  rw [View.canon_unit_zero hz0]
  simp only [View.ld_unit_zero (S := S10000x64) hz0, View.ld_unit_zero (S := S10000x16) hz0, View.ld_unit_zero (S := S16x64) hz0, View.ld_unit_zero (S := S1x64) hz0]
  rw [pay0_eq]
  obtain ⟨-, -, -, -, -, -, -, -, e0, e1⟩ := idx_facts0 t
  funext j
  show edgeMsg (iblk0 V c 0 t) (iblk0 V c 1 t) (iblk0 V c 2 t) (iblk0 V c 3 t) j
    = edgeMsg (V c main_v11) (V c main_arg2) (V c main_v12) (V c main_v13) (((cfg0.win 4).blk t).view.emb j)
  refine edgeMsg_block0 _ _ _ _ _ _ _ _ t.val j _ ?_ ?_ (blk0_0 V c t) (blk0_1 V c t) (blk0_2 V c t) (blk0_3 V c t)
  · show win0_4.index t (0 : Fin 2) * 10000 + 1 * (j 0).val = t.val * 10000 + (j 0).val; omega
  · show win0_4.index t (1 : Fin 2) * 64 + 1 * (j 1).val = (j 1).val; omega

theorem mem_blk0 (t : Fin cfg0.N) (i : S1600000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v14).slice (win0_4.rect t)).set ↔ _
  rw [View.set_slice_whole, Rect.mem_set_unit]
  exact Iff.rfl

theorem cover0 (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 160 := N_0
  have ht : (i 0).val / 10000 < cfg0.N := by rw [hN]; omega
  refine ⟨⟨(i 0).val / 10000, ht⟩, flush0_4 _, ?_⟩
  rw [mem_blk0]
  obtain ⟨-, -, -, -, -, -, -, -, e0, e1⟩ := idx_facts0 ⟨(i 0).val / 10000, ht⟩
  have e0' : win0_4.index ⟨(i 0).val / 10000, ht⟩ (0 : Fin 2) = (i 0).val / 10000 := e0
  intro a
  match a with
  | ⟨0, _⟩ =>
    show win0_4.index ⟨(i 0).val / 10000, ht⟩ (0 : Fin 2) * 10000 ≤ (i 0).val ∧ (i 0).val < win0_4.index ⟨(i 0).val / 10000, ht⟩ (0 : Fin 2) * 10000 + 10000
    rw [e0']; omega
  | ⟨1, _⟩ =>
    show win0_4.index ⟨(i 0).val / 10000, ht⟩ (1 : Fin 2) * 64 ≤ (i 1).val ∧ (i 1).val < win0_4.index ⟨(i 0).val / 10000, ht⟩ (1 : Fin 2) * 64 + 64
    rw [e1]; omega

theorem final0 (V : (c : Dev nD) → (b : Ref sig .tc) → Buf (Elt Ideal) ((c : Thread nD τ).loc b)) (c : Dev nD) :
    (Cert.KernelIdeal.Frame.dat0 (F := Ideal) V c).arrAt 4 cfg0.N
      = (Cert.GraphNet.edgeMsg (V c main_v11) (V c main_arg2) (V c main_v12) (V c main_v13) : S1600000x64.Idx → EReal) :=
  (dat0 (F := Ideal) V c).arrAt_eq_of_cover 4 _ (fun t _ => flushed0_eq V c t) cover0

end Cert.KernelIdeal.Val

end
-- ==== Proof.Val1Pay.lean ====
import proofs.«419359_j12352325943372_2_alg».proof.Proof.Gen.KernelIdeal.Skeleton
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
open scoped BigOperators

namespace Cert.KernelIdeal.Val

open Idealize.ShloMosaic Idealize.ShloMosaic.ValueIdx Cert.GraphNet Cert.KernelIdeal Cert.KernelIdeal.Gen

theorem lhs_mm64_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_mm64_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_mm64_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_mm64_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem mm64_apply {φ₁ φ₂ : FTy} (l : FVec Ideal S5000x64 φ₁) (r : FVec Ideal S64x128 φ₂) (p : Fin 5000) (c : Fin 128) :
    matmul dot_S5000x64_S64x128_S5000x128_1_0_0_1_n_n none l r (constant (F := Ideal) S5000x128 .f32 0x00000000#32) (ix2 p c)
      = ∑ k : Fin 64, l (ix2 p k) * r (ix2 k c) := by
  refine (Ideal.matmul_constant_zero_apply dot_S5000x64_S64x128_S5000x128_1_0_0_1_n_n none l r (ix2 p c)).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p c) ((ValueIdx.contrEquiv1 dot_S5000x64_S64x128_S5000x128_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S5000x64_S64x128_S5000x128_1_0_0_1_n_n.rhsIdx (ix2 p c) ((ValueIdx.contrEquiv1 dot_S5000x64_S64x128_S5000x128_1_0_0_1_n_n 64 rfl rfl).symm k) = ix2 k c := funext fun a => Fin.ext (by
    match a with
    | ⟨0, _⟩ => exact (rhs_mm64_0 _ _).trans hk
    | ⟨1, _⟩ => exact rhs_mm64_1 _ _)
  rw [el, er]

theorem lhs_mm128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm128_apply {φ₁ φ₂ : FTy} (l : FVec Ideal S5000x128 φ₁) (r : FVec Ideal S128x128 φ₂) (p : Fin 5000) (c : Fin 128) :
    matmul dot_S5000x128_S128x128_S5000x128_1_0_0_1_n_n none l r (constant (F := Ideal) S5000x128 .f32 0x00000000#32) (ix2 p c)
      = ∑ k : Fin 128, l (ix2 p k) * r (ix2 k c) := by
  refine (Ideal.matmul_constant_zero_apply dot_S5000x128_S128x128_S5000x128_1_0_0_1_n_n none l r (ix2 p c)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p c) ((ValueIdx.contrEquiv1 dot_S5000x128_S128x128_S5000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S5000x128_S128x128_S5000x128_1_0_0_1_n_n.rhsIdx (ix2 p c) ((ValueIdx.contrEquiv1 dot_S5000x128_S128x128_S5000x128_1_0_0_1_n_n 128 rfl rfl).symm k) = ix2 k c := funext fun a => Fin.ext (by
    match a with
    | ⟨0, _⟩ => exact (rhs_mm128_0 _ _).trans hk
    | ⟨1, _⟩ => exact rhs_mm128_1 _ _)
  rw [el, er]

theorem ofBits_zero : (FloatOps.ofBits (F := Ideal) .f32 0x00000000#32) = (0 : EReal) := Ideal.ofBits_zero_f32

theorem pay1_eq (v0 v1 : FVec Ideal S5000x64 .f32) (v5 : FVec Ideal S64x128 .f32) (v9 : FVec Ideal S1x128 .f32)
    (v16 : FVec Ideal S128x128 .f32) (v20 : FVec Ideal S1x128 .f32) :
    Cert.KernelIdeal.Gen.k1_pay1 (F := Ideal) v0 v1 v5 v9 v16 v20 = Cert.GraphNet.nodeUpd v0 v1 v5 v9 v16 v20 := by
  funext i
  obtain ⟨p, c, rfl⟩ : ∃ (p : Fin 5000) (c : Fin 128), i = ix2 p c := ⟨i 0, i 1, eq_ix2 i⟩
  unfold Gen.k1_pay1
  simp only [maximumf_apply, addf_apply, broadcast_apply, shapeCast_self, truncf_apply, mm128_apply, mm64_apply,
    broadcastTo_1b_ab_apply, ofBits_zero]
  rfl

theorem nodeUpd_rows {N n Din H O : Nat} (X A : Ix2 N Din → EReal) (x a : Ix2 n Din → EReal)
    (W1 : Ix2 Din H → EReal) (b1 : Ix2 1 H → EReal) (W2 : Ix2 H O → EReal) (b2 : Ix2 1 O → EReal)
    (p : Fin n) (r : Fin N) (hx : ∀ j, x (ix2 p j) = X (ix2 r j)) (ha : ∀ j, a (ix2 p j) = A (ix2 r j)) (c : Fin O) :
    nodeUpd x a W1 b1 W2 b2 (ix2 p c) = nodeUpd X A W1 b1 W2 b2 (ix2 r c) := by
  show max ((∑ k : Fin H, max ((∑ j : Fin Din, (x (ix2 p j) + a (ix2 p j)) * W1 (ix2 j k)) + b1 (ix2 0 k)) 0 * W2 (ix2 k c)) + b2 (ix2 0 c)) 0
     = max ((∑ k : Fin H, max ((∑ j : Fin Din, (X (ix2 r j) + A (ix2 r j)) * W1 (ix2 j k)) + b1 (ix2 0 k)) 0 * W2 (ix2 k c)) + b2 (ix2 0 c)) 0
  simp only [hx, ha]

end Cert.KernelIdeal.Val

end
-- ==== Proof.Val1.lean ====
import proofs.«419359_j12352325943372_2_alg».proof.Proof.KI.R1
import proofs.«419359_j12352325943372_2_alg».proof.Proof.Val1Pay
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
open scoped BigOperators

namespace Cert.KernelIdeal.Val

open Idealize.ShloMosaic Idealize.ShloMosaic.TcCoe Idealize.SL.Sem Idealize.ShloMosaic.ValueIdx Cert.GraphNet
open Cert.KernelIdeal Cert.KernelIdeal.Gen Cert.KernelIdeal.Frame
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt1 (t : Fin cfg1.N) : t.val < 20 := by
  exact lt_of_lt_of_eq t.isLt N_1

theorem iblk1_2 (c : Dev nD) (t : Fin cfg1.N) :
    (iblk1 V c 2 t : S64x128.Idx → EReal) = (V c main_v19 : S64x128.Idx → EReal) := by
  obtain ⟨-, -, -, -, e0, e1, -⟩ := idx_facts1 t
  funext y
  show V c main_v19 (((cfg1.win 2).blk t).view.emb y) = V c main_v19 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 128 + 1 * (y 1).val = (y 1).val; omega

theorem iblk1_3 (c : Dev nD) (t : Fin cfg1.N) :
    (iblk1 V c 3 t : S1x128.Idx → EReal) = (V c main_v20 : S1x128.Idx → EReal) := by
  obtain ⟨-, -, -, -, -, -, e0, e1, -⟩ := idx_facts1 t
  funext y
  show V c main_v20 (((cfg1.win 3).blk t).view.emb y) = V c main_v20 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem iblk1_4 (c : Dev nD) (t : Fin cfg1.N) :
    (iblk1 V c 4 t : S128x128.Idx → EReal) = (V c main_v21 : S128x128.Idx → EReal) := by
  obtain ⟨-, -, -, -, -, -, -, -, e0, e1, -⟩ := idx_facts1 t
  funext y
  show V c main_v21 (((cfg1.win 4).blk t).view.emb y) = V c main_v21 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem iblk1_5 (c : Dev nD) (t : Fin cfg1.N) :
    (iblk1 V c 5 t : S1x128.Idx → EReal) = (V c main_v22 : S1x128.Idx → EReal) := by
  obtain ⟨-, -, -, -, -, -, -, -, -, -, e0, e1, -⟩ := idx_facts1 t
  funext y
  show V c main_v22 (((cfg1.win 5).blk t).view.emb y) = V c main_v22 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem iblk1_0_apply (c : Dev nD) (t : Fin cfg1.N) (p : Fin 5000) (j : Fin 64) (r : Fin 100000)
    (hr : r.val = 5000 * t.val + p.val) :
    (iblk1 V c 0 t : S5000x64.Idx → EReal) (ix2 p j) = (V c main_arg0 : S100000x64.Idx → EReal) (ix2 r j) := by
  obtain ⟨e0, e1, -⟩ := idx_facts1 t
  show V c main_arg0 (((cfg1.win 0).blk t).view.emb (ix2 p j)) = V c main_arg0 (ix2 r j)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * j.val = j.val; omega

theorem iblk1_1_apply (c : Dev nD) (t : Fin cfg1.N) (p : Fin 5000) (j : Fin 64) (r : Fin 100000)
    (hr : r.val = 5000 * t.val + p.val) :
    (iblk1 V c 1 t : S5000x64.Idx → EReal) (ix2 p j) = (V c main_v18 : S100000x64.Idx → EReal) (ix2 r j) := by
  obtain ⟨-, -, e0, e1, -⟩ := idx_facts1 t
  show V c main_v18 (((cfg1.win 1).blk t).view.emb (ix2 p j)) = V c main_v18 (ix2 r j)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * j.val = j.val; omega

theorem flushed1_eq (c : Dev nD) (t : Fin cfg1.N) :
    (dat1 (F := Ideal) V c).flushed 6 t = ((cfg1.win 6).blk t).view.read (Elt Ideal)
      (nodeUpd (V c main_arg0) (V c main_v18) (V c main_v19) (V c main_v20) (V c main_v21) (V c main_v22) : S100000x128.Idx → EReal) := by
  show (cfg1.win 6).cut (grid1.coords t) ((dat1 V c).after 6 t) = _
  rw [after1_6]
  unfold out1_6
  rw [View.canon_unit_zero zero_off1]
  simp only [View.ld_unit_zero (S := S5000x64) zero_off1, View.ld_unit_zero (S := S64x128) zero_off1,
    View.ld_unit_zero (S := S1x128) zero_off1, View.ld_unit_zero (S := S128x128) zero_off1]
  rw [pay1_eq, iblk1_2, iblk1_3, iblk1_4, iblk1_5]
  obtain ⟨-, -, -, -, -, -, -, -, -, -, -, -, e0, e1⟩ := idx_facts1 t
  have ht := point_lt1 t
  funext y
  obtain ⟨p, q, rfl⟩ : ∃ (p : Fin 5000) (q : Fin 128), y = ix2 p q := ⟨y 0, y 1, eq_ix2 y⟩
  have hr : 5000 * t.val + p.val < 100000 := by have := p.isLt; omega
  have he : ((cfg1.win 6).blk t).view.emb (ix2 p q) = (ix2 (⟨5000 * t.val + p.val, hr⟩ : Fin 100000) q : S100000x128.Idx) :=
    funext fun a => Fin.ext (by
      match a with
      | ⟨0, _⟩ => show win1_6.index t (0 : Fin 2) * 5000 + 1 * p.val = 5000 * t.val + p.val; omega
      | ⟨1, _⟩ => show win1_6.index t (1 : Fin 2) * 128 + 1 * q.val = q.val; omega)
  show nodeUpd (iblk1 V c 0 t : S5000x64.Idx → EReal) (iblk1 V c 1 t : S5000x64.Idx → EReal) (V c main_v19) (V c main_v20) (V c main_v21) (V c main_v22) (ix2 p q)
    = nodeUpd (V c main_arg0) (V c main_v18) (V c main_v19) (V c main_v20) (V c main_v21) (V c main_v22) (((cfg1.win 6).blk t).view.emb (ix2 p q))
  rw [he]
  exact nodeUpd_rows _ _ _ _ _ _ _ _ p ⟨5000 * t.val + p.val, hr⟩ (fun j => iblk1_0_apply V c t p j _ rfl)
    (fun j => iblk1_1_apply V c t p j _ rfl) q

theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v23).slice (win1_6.rect t)).set ↔ _
  rw [View.set_slice_whole, Rect.mem_set_unit]
  exact Iff.rfl

theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < cfg1.N := lt_of_lt_of_eq (by omega : (i 0).val / 5000 < 20) N_1.symm
  obtain ⟨-, -, -, -, -, -, -, -, -, -, -, -, e0, e1⟩ := idx_facts1 ⟨(i 0).val / 5000, hlt⟩
  have e0' : win1_6.index ⟨(i 0).val / 5000, hlt⟩ (0 : Fin 2) = (i 0).val / 5000 := e0
  refine ⟨⟨(i 0).val / 5000, hlt⟩, flush1_6 _, ?_⟩
  rw [mem_blk1]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; omega

theorem final1 (V : (c : Dev nD) → (b : Ref sig .tc) → Buf (Elt Ideal) ((c : Thread nD τ).loc b)) (c : Dev nD) :
    (Cert.KernelIdeal.Frame.dat1 (F := Ideal) V c).arrAt 6 cfg1.N = (Cert.GraphNet.nodeUpd (V c main_arg0) (V c main_v18) (V c main_v19) (V c main_v20) (V c main_v21) (V c main_v22) : S100000x128.Idx → EReal) :=
  (dat1 (F := Ideal) V c).arrAt_eq_of_cover 6 _ (fun t _ => flushed1_eq V c t) cover1

end Cert.KernelIdeal.Val

end
-- ==== Proof.Val2Pay.lean ====
import proofs.«419359_j12352325943372_2_alg».proof.Proof.Gen.KernelIdeal.Skeleton
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.GraphNet Cert.KernelIdeal
open Cert.KernelIdeal.Facts₀

theorem lhs_dot2_0 (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem lhs_dot2_1 (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
theorem rhs_dot2_0 (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
theorem rhs_dot2_1 (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

theorem matmul2_apply (l : FVec Ideal S10000x16 .bf16) (r : FVec Ideal S16x128 .bf16) (p : Fin 10000) (q : Fin 128) :
    matmul (F := Ideal) dot_S10000x16_S16x128_S10000x128_1_0_0_1_n_n none l r (constant (F := Ideal) S10000x128 .f32 0x00000000#32) (ix2 p q)
      = ∑ k : Fin 16, l (ix2 p k) * r (ix2 k q) := by
  simp only [matmul]
  rw [Ideal.matmul_constant_zero_apply, ← Equiv.sum_comp (ValueIdx.contrEquiv1 dot_S10000x16_S16x128_S10000x128_1_0_0_1_n_n 16 rfl rfl).symm]
  refine Finset.sum_congr rfl fun k _ => ?_
  have hk := ValueIdx.contrEquiv1_symm_val dot_S10000x16_S16x128_S10000x128_1_0_0_1_n_n 16 rfl rfl k
  have el : dot_S10000x16_S16x128_S10000x128_1_0_0_1_n_n.lhsIdx (ix2 p q) ((ValueIdx.contrEquiv1 dot_S10000x16_S16x128_S10000x128_1_0_0_1_n_n 16 rfl rfl).symm k) = ix2 p k := funext fun a => Fin.ext (by
    match a with
    | ⟨0, _⟩ => exact lhs_dot2_0 _ _
    | ⟨1, _⟩ => exact (lhs_dot2_1 _ _).trans hk)
  have er : dot_S10000x16_S16x128_S10000x128_1_0_0_1_n_n.rhsIdx (ix2 p q) ((ValueIdx.contrEquiv1 dot_S10000x16_S16x128_S10000x128_1_0_0_1_n_n 16 rfl rfl).symm k) = ix2 k q := funext fun a => Fin.ext (by
    match a with
    | ⟨0, _⟩ => exact (rhs_dot2_0 _ _).trans hk
    | ⟨1, _⟩ => exact rhs_dot2_1 _ _)
  rw [el, er]

theorem bias2_apply (b : FVec Ideal S1x128 .f32) (p : Fin 10000) (q : Fin 128) :
    broadcastTo S10000x128 b broadcasts_S1x128_S10000x128 (ix2 p q) = b (ix2 0 q) :=
  broadcastTo_apply b broadcasts_S1x128_S10000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

theorem pay2_eq (v0 : FVec Ideal S10000x16 .f32) (v2 : FVec Ideal S16x128 .f32) (v6 : FVec Ideal S10000x128 .bf16)
    (v10 : FVec Ideal S1x128 .f32) :
    Cert.KernelIdeal.Gen.k2_pay1 (F := Ideal) v0 v2 v6 v10 = Cert.GraphNet.edgeMsg v6 v0 v2 v10 := by
  funext j
  obtain ⟨p, q, rfl⟩ : ∃ (p : Fin 10000) (q : Fin 128), j = ix2 p q := ⟨j 0, j 1, eq_ix2 j⟩
  unfold Cert.KernelIdeal.Gen.k2_pay1 Cert.GraphNet.edgeMsg
  simp only [shapeCast_self]
  rw [truncf_apply, maximumf_apply, addf_apply, addf_apply, extf_apply, broadcast_apply, bias2_apply, matmul2_apply]
  simp only [truncf_apply]
  exact congrArg (max _) Ideal.ofBits_zero_f32

end Cert.KernelIdeal.Val

end
-- ==== Proof.Val2.lean ====
import proofs.«419359_j12352325943372_2_alg».proof.Proof.KI.R2
import proofs.«419359_j12352325943372_2_alg».proof.Proof.Val2Pay
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Frame
open Idealize.ShloMosaic Idealize.ShloMosaic.TcCoe Idealize.SL.Sem Idealize.ShloMosaic.ValueIdx Cert.GraphNet
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem edgeMsg_block2 (xs : S1600000x128.Idx → EReal) (ea : S1600000x16.Idx → EReal) (ewT : S16x128.Idx → EReal) (eb : S1x128.Idx → EReal)
    (bx : S10000x128.Idx → EReal) (be : S10000x16.Idx → EReal) (bw : S16x128.Idx → EReal) (bb : S1x128.Idx → EReal)
    (n : Nat) (j : S10000x128.Idx) (i : S1600000x128.Idx)
    (hi0 : (i 0).val = n * 10000 + (j 0).val) (hi1 : (i 1).val = (j 1).val)
    (hx : ∀ (y : S10000x128.Idx) (i : S1600000x128.Idx), (i 0).val = n * 10000 + (y 0).val → (i 1).val = (y 1).val → bx y = xs i)
    (he : ∀ (y : S10000x16.Idx) (i : S1600000x16.Idx), (i 0).val = n * 10000 + (y 0).val → (i 1).val = (y 1).val → be y = ea i)
    (hw : bw = ewT) (hb : bb = eb) :
    edgeMsg bx be bw bb j = edgeMsg xs ea ewT eb i := by
  subst hw; subst hb
  unfold edgeMsg
  have e1 : (j 1 : Fin 128) = i 1 := Fin.ext hi1.symm
  rw [hx j i hi0 hi1, e1]
  refine congrArg (fun s => max ((xs i + s) + bb (ix2 0 (i 1))) 0) (Finset.sum_congr rfl fun k _ => ?_)
  rw [he (ix2 (j 0) k) (ix2 (i 0) k) hi0 rfl]

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem blk2_0 (c : Dev nD) (t : Fin cfg2.N) (y : S10000x128.Idx) (i : S1600000x128.Idx)
    (h0 : (i 0).val = t.val * 10000 + (y 0).val) (h1 : (i 1).val = (y 1).val) :
    (iblk2 V c 0 t : S10000x128.Idx → EReal) y = (V c main_v31 : S1600000x128.Idx → EReal) i := by
  obtain ⟨e0, e1, -⟩ := idx_facts2 t
  show V c main_v31 (((cfg2.win 0).blk t).view.emb y) = V c main_v31 i
  refine congrArg (V c main_v31) (funext fun a => Fin.ext ?_)
  match a with
  | ⟨0, _⟩ => show win2_0.index t (0 : Fin 2) * 10000 + 1 * (y 0).val = (i 0).val; omega
  | ⟨1, _⟩ => show win2_0.index t (1 : Fin 2) * 128 + 1 * (y 1).val = (i 1).val; omega

theorem blk2_1 (c : Dev nD) (t : Fin cfg2.N) (y : S10000x16.Idx) (i : S1600000x16.Idx)
    (h0 : (i 0).val = t.val * 10000 + (y 0).val) (h1 : (i 1).val = (y 1).val) :
    (iblk2 V c 1 t : S10000x16.Idx → EReal) y = (V c main_arg2 : S1600000x16.Idx → EReal) i := by
  obtain ⟨-, -, e0, e1, -⟩ := idx_facts2 t
  show V c main_arg2 (((cfg2.win 1).blk t).view.emb y) = V c main_arg2 i
  refine congrArg (V c main_arg2) (funext fun a => Fin.ext ?_)
  match a with
  | ⟨0, _⟩ => show win2_1.index t (0 : Fin 2) * 10000 + 1 * (y 0).val = (i 0).val; omega
  | ⟨1, _⟩ => show win2_1.index t (1 : Fin 2) * 16 + 1 * (y 1).val = (i 1).val; omega

theorem blk2_2 (c : Dev nD) (t : Fin cfg2.N) :
    (iblk2 V c 2 t : S16x128.Idx → EReal) = (V c main_v32 : S16x128.Idx → EReal) := by
  obtain ⟨-, -, -, -, e0, e1, -⟩ := idx_facts2 t
  funext y
  show V c main_v32 (((cfg2.win 2).blk t).view.emb y) = V c main_v32 y
  refine congrArg (V c main_v32) (funext fun a => Fin.ext ?_)
  match a with
  | ⟨0, _⟩ => show win2_2.index t (0 : Fin 2) * 16 + 1 * (y 0).val = (y 0).val; omega
  | ⟨1, _⟩ => show win2_2.index t (1 : Fin 2) * 128 + 1 * (y 1).val = (y 1).val; omega

theorem blk2_3 (c : Dev nD) (t : Fin cfg2.N) :
    (iblk2 V c 3 t : S1x128.Idx → EReal) = (V c main_v33 : S1x128.Idx → EReal) := by
  obtain ⟨-, -, -, -, -, -, e0, e1, -⟩ := idx_facts2 t
  funext y
  show V c main_v33 (((cfg2.win 3).blk t).view.emb y) = V c main_v33 y
  refine congrArg (V c main_v33) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem flushed2_eq (c : Dev nD) (t : Fin cfg2.N) :
    (dat2 (F := Ideal) V c).flushed 4 t = ((cfg2.win 4).blk t).view.read (Elt Ideal)
      (edgeMsg (V c main_v31) (V c main_arg2) (V c main_v32) (V c main_v33) : S1600000x128.Idx → EReal) := by
  show (cfg2.win 4).cut (grid2.coords t) ((dat2 (F := Ideal) V c).after 4 t) = _
  rw [after2_4]
  unfold out2_4
  rw [View.canon_unit_zero hz2]
  simp only [View.ld_unit_zero (S := S10000x128) hz2, View.ld_unit_zero (S := S10000x16) hz2, View.ld_unit_zero (S := S16x128) hz2, View.ld_unit_zero (S := S1x128) hz2]
  rw [pay2_eq]
  obtain ⟨-, -, -, -, -, -, -, -, e0, e1⟩ := idx_facts2 t
  funext j
  show edgeMsg (iblk2 V c 0 t) (iblk2 V c 1 t) (iblk2 V c 2 t) (iblk2 V c 3 t) j
    = edgeMsg (V c main_v31) (V c main_arg2) (V c main_v32) (V c main_v33) (((cfg2.win 4).blk t).view.emb j)
  refine edgeMsg_block2 _ _ _ _ _ _ _ _ t.val j _ ?_ ?_ (blk2_0 V c t) (blk2_1 V c t) (blk2_2 V c t) (blk2_3 V c t)
  · show win2_4.index t (0 : Fin 2) * 10000 + 1 * (j 0).val = t.val * 10000 + (j 0).val; omega
  · show win2_4.index t (1 : Fin 2) * 128 + 1 * (j 1).val = (j 1).val; omega

theorem mem_blk2 (t : Fin cfg2.N) (i : S1600000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v34).slice (win2_4.rect t)).set ↔ _
  rw [View.set_slice_whole, Rect.mem_set_unit]
  exact Iff.rfl

theorem cover2 (i : S1600000x128.Idx) :
    ∃ t : Fin cfg2.N, (cfg2.win 4).flush t = true ∧ i ∈ ((cfg2.win 4).blk t).view.set := by
  have hi0 : (i 0).val < 1600000 := (i 0).isLt
  have hi1 : (i 1).val < 128 := (i 1).isLt
  have hN : cfg2.N = 160 := N_2
  have ht : (i 0).val / 10000 < cfg2.N := by rw [hN]; omega
  refine ⟨⟨(i 0).val / 10000, ht⟩, flush2_4 _, ?_⟩
  rw [mem_blk2]
  obtain ⟨-, -, -, -, -, -, -, -, e0, e1⟩ := idx_facts2 ⟨(i 0).val / 10000, ht⟩
  have e0' : win2_4.index ⟨(i 0).val / 10000, ht⟩ (0 : Fin 2) = (i 0).val / 10000 := e0
  intro a
  match a with
  | ⟨0, _⟩ =>
    show win2_4.index ⟨(i 0).val / 10000, ht⟩ (0 : Fin 2) * 10000 ≤ (i 0).val ∧ (i 0).val < win2_4.index ⟨(i 0).val / 10000, ht⟩ (0 : Fin 2) * 10000 + 10000
    rw [e0']; omega
  | ⟨1, _⟩ =>
    show win2_4.index ⟨(i 0).val / 10000, ht⟩ (1 : Fin 2) * 128 ≤ (i 1).val ∧ (i 1).val < win2_4.index ⟨(i 0).val / 10000, ht⟩ (1 : Fin 2) * 128 + 128
    rw [e1]; omega

theorem final2 (V : (c : Dev nD) → (b : Ref sig .tc) → Buf (Elt Ideal) ((c : Thread nD τ).loc b)) (c : Dev nD) :
    (Cert.KernelIdeal.Frame.dat2 (F := Ideal) V c).arrAt 4 cfg2.N
      = (Cert.GraphNet.edgeMsg (V c main_v31) (V c main_arg2) (V c main_v32) (V c main_v33) : S1600000x128.Idx → EReal) :=
  (dat2 (F := Ideal) V c).arrAt_eq_of_cover 4 _ (fun t _ => flushed2_eq V c t) cover2

end Cert.KernelIdeal.Val

end
-- ==== Proof.Val3Pay.lean ====
import proofs.«419359_j12352325943372_2_alg».proof.Proof.Val1Pay
noncomputable section
open scoped BigOperators

namespace Cert.KernelIdeal.Val

open Idealize.ShloMosaic Idealize.ShloMosaic.ValueIdx Cert.GraphNet Cert.KernelIdeal Cert.KernelIdeal.Gen

theorem pay3_eq (v0 v2 : FVec Ideal S5000x128 .f32) (v6 : FVec Ideal S128x128 .f32) (v10 : FVec Ideal S1x128 .f32)
    (v17 : FVec Ideal S128x128 .f32) (v21 : FVec Ideal S1x128 .f32) :
    Cert.KernelIdeal.Gen.k3_pay1 (F := Ideal) v0 v2 v6 v10 v17 v21 = Cert.GraphNet.nodeUpd v0 v2 v6 v10 v17 v21 := by
  funext i
  obtain ⟨p, c, rfl⟩ : ∃ (p : Fin 5000) (c : Fin 128), i = ix2 p c := ⟨i 0, i 1, eq_ix2 i⟩
  unfold Gen.k3_pay1
  simp only [maximumf_apply, addf_apply, broadcast_apply, shapeCast_self, truncf_apply, mm128_apply,
    broadcastTo_1b_ab_apply, ofBits_zero]
  rfl

end Cert.KernelIdeal.Val

end
-- ==== Proof.Val3.lean ====
import proofs.«419359_j12352325943372_2_alg».proof.Proof.KI.R3
import proofs.«419359_j12352325943372_2_alg».proof.Proof.Val3Pay
import proofs.«419359_j12352325943372_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
open scoped BigOperators

namespace Cert.KernelIdeal.Val

open Idealize.ShloMosaic Idealize.ShloMosaic.TcCoe Idealize.SL.Sem Idealize.ShloMosaic.ValueIdx Cert.GraphNet
open Cert.KernelIdeal Cert.KernelIdeal.Gen Cert.KernelIdeal.Frame
open Idealize.ShloMosaic.Pipeline (Dat)

variable (V : (c : Dev nD) → (b : Ref sig .tc) → Buf (Elt Ideal) ((c : Thread nD τ).loc b))

theorem zero_off3 : (![0, 0] : Fin 2 → Nat) = fun _ => 0 := funext fun a => by fin_cases a <;> rfl

theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem point_lt3 (t : Fin cfg3.N) : t.val < 20 := by
  exact lt_of_lt_of_eq t.isLt N_3

theorem iblk3_2 (c : Dev nD) (t : Fin cfg3.N) :
    (iblk3 V c 2 t : S128x128.Idx → EReal) = (V c main_v39 : S128x128.Idx → EReal) := by
  obtain ⟨-, -, -, -, e0, e1, -⟩ := idx_facts3 t
  funext y
  show V c main_v39 (((cfg3.win 2).blk t).view.emb y) = V c main_v39 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

theorem iblk3_3 (c : Dev nD) (t : Fin cfg3.N) :
    (iblk3 V c 3 t : S1x128.Idx → EReal) = (V c main_v40 : S1x128.Idx → EReal) := by
  obtain ⟨-, -, -, -, -, -, e0, e1, -⟩ := idx_facts3 t
  funext y
  show V c main_v40 (((cfg3.win 3).blk t).view.emb y) = V c main_v40 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem iblk3_4 (c : Dev nD) (t : Fin cfg3.N) :
    (iblk3 V c 4 t : S128x128.Idx → EReal) = (V c main_v41 : S128x128.Idx → EReal) := by
  obtain ⟨-, -, -, -, -, -, -, -, e0, e1, -⟩ := idx_facts3 t
  funext y
  show V c main_v41 (((cfg3.win 4).blk t).view.emb y) = V c main_v41 y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

theorem iblk3_5 (c : Dev nD) (t : Fin cfg3.N) :
    (iblk3 V c 5 t : S1x128.Idx → EReal) = (V c main_v42 : S1x128.Idx → EReal) := by
  obtain ⟨-, -, -, -, -, -, -, -, -, -, e0, e1, -⟩ := idx_facts3 t
  funext y
  show V c main_v42 (((cfg3.win 5).blk t).view.emb y) = V c main_v42 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

theorem iblk3_0_apply (c : Dev nD) (t : Fin cfg3.N) (p : Fin 5000) (j : Fin 128) (r : Fin 100000)
    (hr : r.val = 5000 * t.val + p.val) :
    (iblk3 V c 0 t : S5000x128.Idx → EReal) (ix2 p j) = (V c main_v23 : S100000x128.Idx → EReal) (ix2 r j) := by
  obtain ⟨e0, e1, -⟩ := idx_facts3 t
  show V c main_v23 (((cfg3.win 0).blk t).view.emb (ix2 p j)) = V c main_v23 (ix2 r j)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * j.val = j.val; omega

theorem iblk3_1_apply (c : Dev nD) (t : Fin cfg3.N) (p : Fin 5000) (j : Fin 128) (r : Fin 100000)
    (hr : r.val = 5000 * t.val + p.val) :
    (iblk3 V c 1 t : S5000x128.Idx → EReal) (ix2 p j) = (V c main_v38 : S100000x128.Idx → EReal) (ix2 r j) := by
  obtain ⟨-, -, e0, e1, -⟩ := idx_facts3 t
  show V c main_v38 (((cfg3.win 1).blk t).view.emb (ix2 p j)) = V c main_v38 (ix2 r j)
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * j.val = j.val; omega

theorem flushed3_eq (c : Dev nD) (t : Fin cfg3.N) :
    (dat3 (F := Ideal) V c).flushed 6 t = ((cfg3.win 6).blk t).view.read (Elt Ideal)
      (nodeUpd (V c main_v23) (V c main_v38) (V c main_v39) (V c main_v40) (V c main_v41) (V c main_v42) : S100000x128.Idx → EReal) := by
  show (cfg3.win 6).cut (grid3.coords t) ((dat3 V c).after 6 t) = _
  rw [after3_6]
  unfold out3_6
  rw [View.canon_unit_zero zero_off3]
  simp only [View.ld_unit_zero (S := S5000x128) zero_off3, View.ld_unit_zero (S := S128x128) zero_off3,
    View.ld_unit_zero (S := S1x128) zero_off3, View.ld_unit_zero (S := S128x128) zero_off3]
  rw [pay3_eq, iblk3_2, iblk3_3, iblk3_4, iblk3_5]
  obtain ⟨-, -, -, -, -, -, -, -, -, -, -, -, e0, e1⟩ := idx_facts3 t
  have ht := point_lt3 t
  funext y
  obtain ⟨p, q, rfl⟩ : ∃ (p : Fin 5000) (q : Fin 128), y = ix2 p q := ⟨y 0, y 1, eq_ix2 y⟩
  have hr : 5000 * t.val + p.val < 100000 := by have := p.isLt; omega
  have he : ((cfg3.win 6).blk t).view.emb (ix2 p q) = (ix2 (⟨5000 * t.val + p.val, hr⟩ : Fin 100000) q : S100000x128.Idx) :=
    funext fun a => Fin.ext (by
      match a with
      | ⟨0, _⟩ => show win3_6.index t (0 : Fin 2) * 5000 + 1 * p.val = 5000 * t.val + p.val; omega
      | ⟨1, _⟩ => show win3_6.index t (1 : Fin 2) * 128 + 1 * q.val = q.val; omega)
  show nodeUpd (iblk3 V c 0 t : S5000x128.Idx → EReal) (iblk3 V c 1 t : S5000x128.Idx → EReal) (V c main_v39) (V c main_v40) (V c main_v41) (V c main_v42) (ix2 p q)
    = nodeUpd (V c main_v23) (V c main_v38) (V c main_v39) (V c main_v40) (V c main_v41) (V c main_v42) (((cfg3.win 6).blk t).view.emb (ix2 p q))
  rw [he]
  exact nodeUpd_rows _ _ _ _ _ _ _ _ p ⟨5000 * t.val + p.val, hr⟩ (fun j => iblk3_0_apply V c t p j _ rfl)
    (fun j => iblk3_1_apply V c t p j _ rfl) q

theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v43).slice (win3_6.rect t)).set ↔ _
  rw [View.set_slice_whole, Rect.mem_set_unit]
  exact Iff.rfl

theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hlt : (i 0).val / 5000 < cfg3.N := lt_of_lt_of_eq (by omega : (i 0).val / 5000 < 20) N_3.symm
  obtain ⟨-, -, -, -, -, -, -, -, -, -, -, -, e0, e1⟩ := idx_facts3 ⟨(i 0).val / 5000, hlt⟩
  have e0' : win3_6.index ⟨(i 0).val / 5000, hlt⟩ (0 : Fin 2) = (i 0).val / 5000 := e0
  refine ⟨⟨(i 0).val / 5000, hlt⟩, flush3_6 _, ?_⟩
  rw [mem_blk3]
  intro a
  match a with
  | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; omega
  | ⟨1, _⟩ => show win3_6.index ⟨(i 0).val / 5000, hlt⟩ (1 : Fin 2) * 128 ≤ (i 1).val ∧ (i 1).val < win3_6.index ⟨(i 0).val / 5000, hlt⟩ (1 : Fin 2) * 128 + 128; omega

theorem final3 (V : (c : Dev nD) → (b : Ref sig .tc) → Buf (Elt Ideal) ((c : Thread nD τ).loc b)) (c : Dev nD) :
    (Cert.KernelIdeal.Frame.dat3 (F := Ideal) V c).arrAt 6 cfg3.N = (Cert.GraphNet.nodeUpd (V c main_v23) (V c main_v38) (V c main_v39) (V c main_v40) (V c main_v41) (V c main_v42) : S100000x128.Idx → EReal) :=
  (dat3 (F := Ideal) V c).arrAt_eq_of_cover 6 _ (fun t _ => flushed3_eq V c t) cover3

end Cert.KernelIdeal.Val

end
-- ==== Proof.Net.lean ====
import proofs.«419359_j12352325943372_2_alg».proof.ReferenceIdeal
import proofs.«419359_j12352325943372_2_alg».proof.Proof.Gen.ReferenceIdeal
import proofs.«419359_j12352325943372_2_alg».proof.Proof.Spec

noncomputable section

namespace Cert.GraphNet

open Idealize.ShloMosaic Cert.ReferenceIdeal Cert.ReferenceIdeal.Facts₀

def edgeRow0 (ei : IVec S2x1600000 32) : IVec S1600000 32 :=
  shapeCast _ (extractStridedSlice S1x1600000 ![0, 0] ei slices_S2x1600000_S1x1600000_0_0) shapeCasts_S1x1600000_S1600000
def edgeRow1 (ei : IVec S2x1600000 32) : IVec S1600000 32 :=
  shapeCast _ (extractStridedSlice S1x1600000 ![1, 0] ei slices_S2x1600000_S1x1600000_1_0) shapeCasts_S1x1600000_S1600000

def srcIdx (ei : IVec S2x1600000 32) : IVec S1600000x1 32 :=
  broadcastInDim S1600000x1 ![0] bcast_S1600000_S1600000x1_0
    (select (cmpi .slt (edgeRow0 ei) (broadcastInDim S1600000 ![] bcast_S_S1600000 (constantI S_ 32 0#32)))
      (addi (edgeRow0 ei) (broadcastInDim S1600000 ![] bcast_S_S1600000 (constantI S_ 32 100000#32))) (edgeRow0 ei))

def dstIdx (ei : IVec S2x1600000 32) : IVec S1600000x1 32 :=
  broadcastInDim S1600000x1 ![0] bcast_S1600000_S1600000x1_0 (edgeRow1 ei)

def aggr64 (ei : IVec S2x1600000 32) (msg : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32)) (dstIdx ei) msg

def aggr128 (ei : IVec S2x1600000 32) (msg : FVec Ideal S1600000x128 .f32) : FVec Ideal S100000x128 .f32 :=
  Host.scatterAdd scatter_S100000x128_S1600000x1_S1600000x128_1_0_0_1
    (broadcastInDim S100000x128 ![] bcast_S_S100000x128 (constant S_ .f32 0x00000000#32)) (dstIdx ei) msg

def msg1 (x : FVec Ideal S100000x64 .f32) (ei : IVec S2x1600000 32) (ea : FVec Ideal S1600000x16 .f32)
    (ew1 : FVec Ideal S64x16 .f32) (eb1 : FVec Ideal S64 .f32) : FVec Ideal S1600000x64 .f32 :=
  edgeMsg (Host.gather gather_S100000x64_S1600000x1_S1600000x64_1_0_n_n_0_1_164 x (srcIdx ei)) ea
    (transpose S16x64 [1, 0] ew1 transposes_S64x16_S16x64_1_0) (broadcastInDim S1x64 ![1] bcast_S64_S1x64_1 eb1)

def h1 (x : FVec Ideal S100000x64 .f32) (ei : IVec S2x1600000 32) (ea : FVec Ideal S1600000x16 .f32)
    (ew1 : FVec Ideal S64x16 .f32) (eb1 : FVec Ideal S64 .f32) (w1a : FVec Ideal S128x64 .f32) (b1a : FVec Ideal S128 .f32)
    (w1b : FVec Ideal S128x128 .f32) (b1b : FVec Ideal S128 .f32) : FVec Ideal S100000x128 .f32 :=
  nodeUpd x (aggr64 ei (msg1 x ei ea ew1 eb1))
    (transpose S64x128 [1, 0] w1a transposes_S128x64_S64x128_1_0) (broadcastInDim S1x128 ![1] bcast_S128_S1x128_1 b1a)
    (transpose S128x128 [1, 0] w1b transposes_S128x128_S128x128_1_0) (broadcastInDim S1x128 ![1] bcast_S128_S1x128_1 b1b)

def msg2 (h : FVec Ideal S100000x128 .f32) (ei : IVec S2x1600000 32) (ea : FVec Ideal S1600000x16 .f32)
    (ew2 : FVec Ideal S128x16 .f32) (eb2 : FVec Ideal S128 .f32) : FVec Ideal S1600000x128 .f32 :=
  edgeMsg (Host.gather gather_S100000x128_S1600000x1_S1600000x128_1_0_n_n_0_1_1128 h (srcIdx ei)) ea
    (transpose S16x128 [1, 0] ew2 transposes_S128x16_S16x128_1_0) (broadcastInDim S1x128 ![1] bcast_S128_S1x128_1 eb2)

def h2 (h : FVec Ideal S100000x128 .f32) (ei : IVec S2x1600000 32) (ea : FVec Ideal S1600000x16 .f32)
    (ew2 : FVec Ideal S128x16 .f32) (eb2 : FVec Ideal S128 .f32) (w2a : FVec Ideal S128x128 .f32) (b2a : FVec Ideal S128 .f32)
    (w2b : FVec Ideal S128x128 .f32) (b2b : FVec Ideal S128 .f32) : FVec Ideal S100000x128 .f32 :=
  nodeUpd h (aggr128 ei (msg2 h ei ea ew2 eb2))
    (transpose S128x128 [1, 0] w2a transposes_S128x128_S128x128_1_0) (broadcastInDim S1x128 ![1] bcast_S128_S1x128_1 b2a)
    (transpose S128x128 [1, 0] w2b transposes_S128x128_S128x128_1_0) (broadcastInDim S1x128 ![1] bcast_S128_S1x128_1 b2b)

def net (x : FVec Ideal S100000x64 .f32) (ei : IVec S2x1600000 32) (ea : FVec Ideal S1600000x16 .f32) (batch : IVec S100000 32)
    (ew1 : FVec Ideal S64x16 .f32) (eb1 : FVec Ideal S64 .f32) (w1a : FVec Ideal S128x64 .f32) (b1a : FVec Ideal S128 .f32)
    (w1b : FVec Ideal S128x128 .f32) (b1b : FVec Ideal S128 .f32)
    (ew2 : FVec Ideal S128x16 .f32) (eb2 : FVec Ideal S128 .f32) (w2a : FVec Ideal S128x128 .f32) (b2a : FVec Ideal S128 .f32)
    (w2b : FVec Ideal S128x128 .f32) (b2b : FVec Ideal S128 .f32) (wf : FVec Ideal S1x128 .f32) (bf : FVec Ideal S1 .f32) :
    FVec Ideal S256x1 .f32 :=
  poolOut (h2 (h1 x ei ea ew1 eb1 w1a b1a w1b b1b) ei ea ew2 eb2 w2a b2a w2b b2b)
    (broadcastInDim S100000x1 ![0] bcast_S100000_S100000x1_0 batch)
    (transpose S128x1 [1, 0] wf transposes_S1x128_S128x1_1_0) (broadcastInDim S1x1 ![1] bcast_S1_S1x1_1 bf)

end Cert.GraphNet

end
-- ==== Proof.Chain.lean ====
import proofs.«419359_j12352325943372_2_alg».proof.Proof.KI.Vals
import proofs.«419359_j12352325943372_2_alg».proof.Proof.KI.HostGlue
import proofs.«419359_j12352325943372_2_alg».proof.Proof.Val0
import proofs.«419359_j12352325943372_2_alg».proof.Proof.Val1
import proofs.«419359_j12352325943372_2_alg».proof.Proof.Val2
import proofs.«419359_j12352325943372_2_alg».proof.Proof.Val3
import proofs.«419359_j12352325943372_2_alg».proof.Proof.Net
import proofs.«419359_j12352325943372_2_alg».proof.Proof.Gen.ReferenceIdeal
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx

theorem shapeCast_row_eq_bcast {α : Type} {n : ℕ} (x : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ x h = broadcastInDim ⟨2, ![1, n]⟩ ![1] h' x := by
  funext j
  rw [shapeCast_apply x h j (ix1 (j 1)) (by
    rw [Shape.rowMajor_val_two, Shape.rowMajor_val_one]
    show (j 1).val = (j 0).val * n + (j 1).val
    have := idx2_lt0 j
    have h0 : (j 0).val = 0 := by omega
    rw [h0, Nat.zero_mul, Nat.zero_add])]
  refine (broadcastInDim_apply _ h' x _ (ix1 (j 1)) (fun a => ?_)).symm
  match a with
  | ⟨0, _⟩ =>
    show (j 1).val = if n = 1 then 0 else (j 1).val
    have := idx2_lt1 j
    split <;> omega

theorem shapeCast_col_eq_bcast {α : Type} {n : ℕ} (x : (⟨1, ![n]⟩ : Shape).Idx → α) (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ x h = broadcastInDim ⟨2, ![n, 1]⟩ ![0] h' x := by
  funext j
  rw [shapeCast_apply x h j (ix1 (j 0)) (by
    rw [Shape.rowMajor_val_two, Shape.rowMajor_val_one]
    show (j 0).val = (j 0).val * 1 + (j 1).val
    have := idx2_lt1 j
    omega)]
  refine (broadcastInDim_apply _ h' x _ (ix1 (j 0)) (fun a => ?_)).symm
  match a with
  | ⟨0, _⟩ =>
    show (j 0).val = if n = 1 then 0 else (j 0).val
    have := idx2_lt0 j
    split <;> omega

section Chain
variable (m : (ℓ : Loc nD τ sig) → Buf (Elt Ideal) ℓ) (ρ : Dev nD → PrngReg) (c : Dev nD)

/-- Core `c`'s argument array `r` at launch, and the network's stages of those arrays. -/
abbrev arg (r : Ref sig .tc) := m ((c : Thread nD τ).loc r)
abbrev msg1At := Cert.GraphNet.msg1 (arg m c main_arg0) (arg m c main_arg1) (arg m c main_arg2) (arg m c main_arg4) (arg m c main_arg5)
abbrev h1At := Cert.GraphNet.h1 (arg m c main_arg0) (arg m c main_arg1) (arg m c main_arg2) (arg m c main_arg4) (arg m c main_arg5) (arg m c main_arg6) (arg m c main_arg7) (arg m c main_arg8) (arg m c main_arg9)
abbrev msg2At := Cert.GraphNet.msg2 (h1At m c) (arg m c main_arg1) (arg m c main_arg2) (arg m c main_arg10) (arg m c main_arg11)
abbrev h2At := Cert.GraphNet.h2 (h1At m c) (arg m c main_arg1) (arg m c main_arg2) (arg m c main_arg10) (arg m c main_arg11) (arg m c main_arg12) (arg m c main_arg13) (arg m c main_arg14) (arg m c main_arg15)

theorem w1_v1 : W1 (F := Ideal) m ρ c (Proc.devRef .tc main_v1) = Cert.GraphNet.edgeRow0 (arg m c main_arg1) :=
  (glue0_v1 (F := Ideal) (W0 m ρ c)).trans rfl
theorem w1_v3 : W1 (F := Ideal) m ρ c (Proc.devRef .tc main_v3) = Cert.GraphNet.edgeRow1 (arg m c main_arg1) :=
  (glue0_v3 (F := Ideal) (W0 m ρ c)).trans rfl

theorem e1_v11 : E1 (F := Ideal) m ρ c main_v11 = Host.gather Cert.ReferenceIdeal.gather_S100000x64_S1600000x1_S1600000x64_1_0_n_n_0_1_164
    (arg m c main_arg0) (Cert.GraphNet.srcIdx (arg m c main_arg1)) :=
  (glue0_v11 (F := Ideal) (W0 m ρ c)).trans rfl
theorem e1_arg2 : E1 (F := Ideal) m ρ c main_arg2 = (arg m c main_arg2) := W1_m m ρ c main_arg2 (by decide)
theorem e1_v12 : E1 (F := Ideal) m ρ c main_v12
    = transpose Cert.ReferenceIdeal.S16x64 [1, 0] (arg m c main_arg4) Cert.ReferenceIdeal.Facts₀.transposes_S64x16_S16x64_1_0 :=
  (glue0_v12 (F := Ideal) (W0 m ρ c)).trans rfl
theorem e1_v13 : E1 (F := Ideal) m ρ c main_v13
    = broadcastInDim Cert.ReferenceIdeal.S1x64 ![1] Cert.ReferenceIdeal.Facts₀.bcast_S64_S1x64_1 (arg m c main_arg5) :=
  (glue0_v13 (F := Ideal) (W0 m ρ c)).trans (shapeCast_row_eq_bcast _ _ _)

theorem w2_v14 : W2 (F := Ideal) m ρ c (Proc.devRef .tc main_v14)
    = msg1At m c := by
  refine (W2_arr m ρ c 4).trans ((final0 (E1 m ρ) c).trans ?_)
  rw [e1_v11, e1_arg2, e1_v12, e1_v13]
  rfl

theorem w2_v3 : W2 (F := Ideal) m ρ c (Proc.devRef .tc main_v3) = Cert.GraphNet.edgeRow1 (arg m c main_arg1) :=
  (W2_kept m ρ c main_v3 (by decide)).trans (w1_v3 m ρ c)

theorem e3_arg0 : E3 (F := Ideal) m ρ c main_arg0 = (arg m c main_arg0) := W3_m m ρ c main_arg0 (by decide) (by decide) (by decide)
theorem e3_v18 : E3 (F := Ideal) m ρ c main_v18 = Cert.GraphNet.aggr64 (arg m c main_arg1) (msg1At m c) := by
  refine (glue1_v18 (F := Ideal) (W2 m ρ c)).trans ?_
  rw [w2_v3, w2_v14]
  rfl
theorem e3_v19 : E3 (F := Ideal) m ρ c main_v19
    = transpose Cert.ReferenceIdeal.S64x128 [1, 0] (arg m c main_arg6) Cert.ReferenceIdeal.Facts₀.transposes_S128x64_S64x128_1_0 := by
  refine (glue1_v19 (F := Ideal) (W2 m ρ c)).trans ?_
  rw [W2_m m ρ c main_arg6 (by decide) (by decide)] <;> rfl
theorem e3_v20 : E3 (F := Ideal) m ρ c main_v20
    = broadcastInDim Cert.ReferenceIdeal.S1x128 ![1] Cert.ReferenceIdeal.Facts₀.bcast_S128_S1x128_1 (arg m c main_arg7) := by
  refine (glue1_v20 (F := Ideal) (W2 m ρ c)).trans ?_
  rw [W2_m m ρ c main_arg7 (by decide) (by decide)]
  exact shapeCast_row_eq_bcast _ _ _
theorem e3_v21 : E3 (F := Ideal) m ρ c main_v21
    = transpose Cert.ReferenceIdeal.S128x128 [1, 0] (arg m c main_arg8) Cert.ReferenceIdeal.Facts₀.transposes_S128x128_S128x128_1_0 := by
  refine (glue1_v21 (F := Ideal) (W2 m ρ c)).trans ?_
  rw [W2_m m ρ c main_arg8 (by decide) (by decide)] <;> rfl
theorem e3_v22 : E3 (F := Ideal) m ρ c main_v22
    = broadcastInDim Cert.ReferenceIdeal.S1x128 ![1] Cert.ReferenceIdeal.Facts₀.bcast_S128_S1x128_1 (arg m c main_arg9) := by
  refine (glue1_v22 (F := Ideal) (W2 m ρ c)).trans ?_
  rw [W2_m m ρ c main_arg9 (by decide) (by decide)]
  exact shapeCast_row_eq_bcast _ _ _

theorem w4_v23 : W4 (F := Ideal) m ρ c (Proc.devRef .tc main_v23) = (h1At m c) := by
  refine (W4_arr m ρ c 6).trans ((final1 (E3 m ρ) c).trans ?_)
  rw [e3_arg0, e3_v18, e3_v19, e3_v20, e3_v21, e3_v22]
  rfl

theorem w4_v1 : W4 (F := Ideal) m ρ c (Proc.devRef .tc main_v1) = Cert.GraphNet.edgeRow0 (arg m c main_arg1) :=
  (W4_kept m ρ c main_v1 (by decide)).trans ((W3_of m ρ c main_v1 (by decide)).trans
    ((W2_kept m ρ c main_v1 (by decide)).trans (w1_v1 m ρ c)))

theorem e5_v31 : E5 (F := Ideal) m ρ c main_v31 = Host.gather Cert.ReferenceIdeal.gather_S100000x128_S1600000x1_S1600000x128_1_0_n_n_0_1_1128
    (h1At m c) (Cert.GraphNet.srcIdx (arg m c main_arg1)) := by
  refine (glue2_v31 (F := Ideal) (W4 m ρ c)).trans ?_
  rw [w4_v23, w4_v1]
  rfl

theorem e5_arg2 : E5 (F := Ideal) m ρ c main_arg2 = (arg m c main_arg2) :=
  W5_m m ρ c main_arg2 (by decide) (by decide) (by decide) (by decide) (by decide)
theorem e5_v32 : E5 (F := Ideal) m ρ c main_v32
    = transpose Cert.ReferenceIdeal.S16x128 [1, 0] (arg m c main_arg10) Cert.ReferenceIdeal.Facts₀.transposes_S128x16_S16x128_1_0 := by
  refine (glue2_v32 (F := Ideal) (W4 m ρ c)).trans ?_
  rw [W4_m m ρ c main_arg10 (by decide) (by decide) (by decide) (by decide)] <;> rfl
theorem e5_v33 : E5 (F := Ideal) m ρ c main_v33
    = broadcastInDim Cert.ReferenceIdeal.S1x128 ![1] Cert.ReferenceIdeal.Facts₀.bcast_S128_S1x128_1 (arg m c main_arg11) := by
  refine (glue2_v33 (F := Ideal) (W4 m ρ c)).trans ?_
  rw [W4_m m ρ c main_arg11 (by decide) (by decide) (by decide) (by decide)]
  exact shapeCast_row_eq_bcast _ _ _

theorem w6_v34 : W6 (F := Ideal) m ρ c (Proc.devRef .tc main_v34) = (msg2At m c) := by
  refine (W6_arr m ρ c 4).trans ((final2 (E5 m ρ) c).trans ?_)
  rw [e5_v31, e5_arg2, e5_v32, e5_v33]
  rfl

theorem w6_v3 : W6 (F := Ideal) m ρ c (Proc.devRef .tc main_v3) = Cert.GraphNet.edgeRow1 (arg m c main_arg1) :=
  (W6_kept m ρ c main_v3 (by decide)).trans ((W5_of m ρ c main_v3 (by decide)).trans
    ((W4_kept m ρ c main_v3 (by decide)).trans ((W3_of m ρ c main_v3 (by decide)).trans (w2_v3 m ρ c))))

theorem e7_v23 : E7 (F := Ideal) m ρ c main_v23 = (h1At m c) :=
  (W7_of m ρ c main_v23 (by decide)).trans ((W6_kept m ρ c main_v23 (by decide)).trans
    ((W5_of m ρ c main_v23 (by decide)).trans (w4_v23 m ρ c)))
theorem e7_v38 : E7 (F := Ideal) m ρ c main_v38 = Cert.GraphNet.aggr128 (arg m c main_arg1) (msg2At m c) := by
  refine (glue3_v38 (F := Ideal) (W6 m ρ c)).trans ?_
  rw [w6_v3, w6_v34]
  rfl
theorem e7_v39 : E7 (F := Ideal) m ρ c main_v39
    = transpose Cert.ReferenceIdeal.S128x128 [1, 0] (arg m c main_arg12) Cert.ReferenceIdeal.Facts₀.transposes_S128x128_S128x128_1_0 := by
  refine (glue3_v39 (F := Ideal) (W6 m ρ c)).trans ?_
  rw [W6_m m ρ c main_arg12 (by decide) (by decide) (by decide) (by decide) (by decide) (by decide)] <;> rfl
theorem e7_v40 : E7 (F := Ideal) m ρ c main_v40
    = broadcastInDim Cert.ReferenceIdeal.S1x128 ![1] Cert.ReferenceIdeal.Facts₀.bcast_S128_S1x128_1 (arg m c main_arg13) := by
  refine (glue3_v40 (F := Ideal) (W6 m ρ c)).trans ?_
  rw [W6_m m ρ c main_arg13 (by decide) (by decide) (by decide) (by decide) (by decide) (by decide)]
  exact shapeCast_row_eq_bcast _ _ _
theorem e7_v41 : E7 (F := Ideal) m ρ c main_v41
    = transpose Cert.ReferenceIdeal.S128x128 [1, 0] (arg m c main_arg14) Cert.ReferenceIdeal.Facts₀.transposes_S128x128_S128x128_1_0 := by
  refine (glue3_v41 (F := Ideal) (W6 m ρ c)).trans ?_
  rw [W6_m m ρ c main_arg14 (by decide) (by decide) (by decide) (by decide) (by decide) (by decide)] <;> rfl
theorem e7_v42 : E7 (F := Ideal) m ρ c main_v42
    = broadcastInDim Cert.ReferenceIdeal.S1x128 ![1] Cert.ReferenceIdeal.Facts₀.bcast_S128_S1x128_1 (arg m c main_arg15) := by
  refine (glue3_v42 (F := Ideal) (W6 m ρ c)).trans ?_
  rw [W6_m m ρ c main_arg15 (by decide) (by decide) (by decide) (by decide) (by decide) (by decide)]
  exact shapeCast_row_eq_bcast _ _ _

theorem w8_v43 : W8 (F := Ideal) m ρ c (Proc.devRef .tc main_v43) = (h2At m c) := by
  refine (W8_arr m ρ c 6).trans ((final3 (E7 m ρ) c).trans ?_)
  rw [e7_v23, e7_v38, e7_v39, e7_v40, e7_v41, e7_v42]
  rfl

theorem e9_v43 : Cert.KernelIdeal.Frame.E9 (F := Ideal) m ρ c main_v43
    = ((h2At m c) : S100000x128.Idx → EReal) :=
  (W9_of m ρ c main_v43 (by decide)).trans (w8_v43 m ρ c)

theorem e9_v44 : Cert.KernelIdeal.Frame.E9 (F := Ideal) m ρ c main_v44
    = broadcastInDim Cert.ReferenceIdeal.S100000x1 ![0] Cert.ReferenceIdeal.Facts₀.bcast_S100000_S100000x1_0 (arg m c main_arg3) := by
  refine (glue4_v44 (F := Ideal) (W8 m ρ c)).trans ?_
  rw [W8_m m ρ c main_arg3 (by decide) (by decide) (by decide) (by decide) (by decide) (by decide) (by decide) (by decide)]
  exact shapeCast_col_eq_bcast _ _ _

theorem e9_v45 : Cert.KernelIdeal.Frame.E9 (F := Ideal) m ρ c main_v45
    = transpose Cert.ReferenceIdeal.S128x1 [1, 0] (arg m c main_arg16) Cert.ReferenceIdeal.Facts₀.transposes_S1x128_S128x1_1_0 := by
  refine (glue4_v45 (F := Ideal) (W8 m ρ c)).trans ?_
  rw [W8_m m ρ c main_arg16 (by decide) (by decide) (by decide) (by decide) (by decide) (by decide) (by decide) (by decide)] <;> rfl

theorem e9_v46 : Cert.KernelIdeal.Frame.E9 (F := Ideal) m ρ c main_v46
    = broadcastInDim Cert.ReferenceIdeal.S1x1 ![1] Cert.ReferenceIdeal.Facts₀.bcast_S1_S1x1_1 (arg m c main_arg17) := by
  refine (glue4_v46 (F := Ideal) (W8 m ρ c)).trans ?_
  rw [W8_m m ρ c main_arg17 (by decide) (by decide) (by decide) (by decide) (by decide) (by decide) (by decide) (by decide)]
  exact shapeCast_row_eq_bcast _ _ _

end Chain

end Cert.KernelIdeal.Val

end
-- ==== Proof.Assemble.lean ====
import proofs.«419359_j12352325943372_2_alg».proof.Proof.KI.Run
import proofs.«419359_j12352325943372_2_alg».proof.Proof.Val4
import proofs.«419359_j12352325943372_2_alg».proof.Proof.Chain

noncomputable section

namespace Cert.KernelIdeal.Val

open Idealize.ShloMosaic Idealize.ShloMosaic.TcCoe Idealize.SL.Sem Cert.KernelIdeal Cert.GraphNet

def netAt (m : (ℓ : Loc nD τ sig) → Buf (Elt Ideal) ℓ) (c : Dev nD) : FVec Ideal Cert.ReferenceIdeal.S256x1 .f32 :=
  net (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))

theorem kernel_value (m : (ℓ : Loc nD τ sig) → Buf (Elt Ideal) ℓ) (ρ : Dev nD → PrngReg) (c : Dev nD) :
    Cert.KernelIdeal.Frame.W10 (F := Ideal) m ρ c (Proc.devRef .tc main_v47) = netAt m c := by
  refine (Cert.KernelIdeal.Frame.W10_arr m ρ c 4).trans ?_
  rw [final4 (Cert.KernelIdeal.Frame.E9 m ρ) c, e9_v43, e9_v44, e9_v45, e9_v46]
  rfl

end Cert.KernelIdeal.Val

end
-- ==== Proof.RefPool.lean ====
import proofs.«419359_j12352325943372_2_alg».proof.Proof.Gen.ReferenceIdeal
import proofs.«419359_j12352325943372_2_alg».proof.Proof.Net
import Idealize.ShloMosaic.Lib.ValueIdx
import Idealize.ShloMosaic.Lib.ValueLayout
import Idealize.ShloMosaic.Lib.Pipeline.Value
import Idealize.ShloMosaic.PureOps.Ideal.Laws
noncomputable section
open scoped BigOperators
namespace Cert.ReferenceIdeal.RefValue
open Idealize.ShloMosaic Idealize.ShloMosaic.ValueIdx Cert.ReferenceIdeal Cert.ReferenceIdeal.Facts₀ Cert.GraphNet

namespace Pool

abbrev sumDims := scatter_S256x128_S100000x1_S100000x128_1_0_0_1
abbrev cntDims := scatter_S256_S100000x1_S100000_n_0_0_1

theorem start_sum0 (n : Fin 100000) (dd : Fin 128) (idx : IVec S100000x1 32) :
    sumDims.start (ix2 n dd) idx 0 = (idx (ix2 n 0)).toInt := by
  unfold ScatterDims.start
  rw [dif_pos (show (0 : Fin S256x128.rank) ∈ sumDims.scatterDimsToOperandDims by decide)]
  refine congrArg (fun k => (idx k).toInt) (funext fun b => Fin.ext ?_)
  match b with
  | ⟨0, _⟩ => rfl
  | ⟨1, _⟩ => rfl

theorem start_sum1 (n : Fin 100000) (dd : Fin 128) (idx : IVec S100000x1 32) :
    sumDims.start (ix2 n dd) idx 1 = 0 := by
  unfold ScatterDims.start
  rw [dif_neg (show ¬ (1 : Fin S256x128.rank) ∈ sumDims.scatterDimsToOperandDims by decide)]

theorem window_sum0 (n : Fin 100000) (dd : Fin 128) : sumDims.window (ix2 n dd) 0 = 0 := by
  unfold ScatterDims.window
  rw [dif_neg (show ¬ (0 : Fin S256x128.rank) ∈ sumDims.sKept by decide)]

theorem window_sum1 (n : Fin 100000) (dd : Fin 128) : sumDims.window (ix2 n dd) 1 = dd.val := by
  unfold ScatterDims.window
  rw [dif_pos (show (1 : Fin S256x128.rank) ∈ sumDims.sKept by decide)]
  rfl

theorem start_cnt0 (n : Fin 100000) (idx : IVec S100000x1 32) :
    cntDims.start (ix1 n) idx 0 = (idx (ix2 n 0)).toInt := by
  unfold ScatterDims.start
  rw [dif_pos (show (0 : Fin S256.rank) ∈ cntDims.scatterDimsToOperandDims by decide)]
  refine congrArg (fun k => (idx k).toInt) (funext fun b => Fin.ext ?_)
  match b with
  | ⟨0, _⟩ => rfl
  | ⟨1, _⟩ => rfl

theorem window_cnt0 (n : Fin 100000) : cntDims.window (ix1 n) 0 = 0 := by
  unfold ScatterDims.window
  rw [dif_neg (show ¬ (0 : Fin S256.rank) ∈ cntDims.sKept by decide)]

theorem toInt_eq_iff (b : BitVec 32) (g : Nat) (hg : g < 256) : b.toInt = (g : Int) ↔ b = BitVec.ofNat 32 g := by
  constructor
  · intro h
    apply BitVec.eq_of_toNat_eq
    rw [BitVec.toNat_ofNat, BitVec.toInt_eq_toNat_cond] at *
    have := b.isLt
    split at h <;> omega
  · rintro rfl
    rw [BitVec.toInt_eq_toNat_cond, BitVec.toNat_ofNat]
    have : g % 2 ^ 32 = g := Nat.mod_eq_of_lt (by omega)
    rw [this, if_pos (by omega)]

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + d.window j a).toNat : Nat) : Int)
      omega
    · intro e
      funext a; apply Fin.ext
      show (d.start j idx a + d.window j a).toNat = (i a).val
      have := e a; omega
  · rename_i h
    constructor
    · intro e; cases e
    · intro e
      refine absurd (fun a => ?_) h
      have := e a; have := (i a).isLt
      constructor <;> omega

theorem resultIdx?_sum (idx : IVec S100000x1 32) (n : Fin 100000) (dd : Fin 128) (g : Fin 256) (d' : Fin 128) :
    sumDims.resultIdx? (ix2 n dd) idx = some (ix2 g d') ↔ inGraph idx n g.val ∧ dd = d' := by
  rw [resultIdx?_eq_some_iff]
  constructor
  · intro e
    have e0 := e 0
    have e1 := e 1
    rw [start_sum0, window_sum0] at e0
    rw [start_sum1, window_sum1] at e1
    refine ⟨(toInt_eq_iff _ _ g.isLt).1 ?_, Fin.ext ?_⟩
    · have : (((ix2 g d' : S256x128.Idx) 0).val : Int) = (g.val : Int) := rfl
      rw [this] at e0; omega
    · have : (((ix2 g d' : S256x128.Idx) 1).val : Int) = (d'.val : Int) := rfl
      rw [this] at e1; omega
  · rintro ⟨hg, rfl⟩ a
    match a with
    | ⟨0, _⟩ =>
      show sumDims.start (ix2 n dd) idx 0 + (sumDims.window (ix2 n dd) 0 : Int) = (g.val : Int)
      rw [start_sum0, window_sum0, (toInt_eq_iff _ _ g.isLt).2 hg]; omega
    | ⟨1, _⟩ =>
      show sumDims.start (ix2 n dd) idx 1 + (sumDims.window (ix2 n dd) 1 : Int) = (dd.val : Int)
      rw [start_sum1, window_sum1]; omega

theorem resultIdx?_cnt (idx : IVec S100000x1 32) (n : Fin 100000) (g : Fin 256) :
    cntDims.resultIdx? (ix1 n) idx = some (ix1 g) ↔ inGraph idx n g.val := by
  rw [resultIdx?_eq_some_iff]
  constructor
  · intro e
    have e0 := e 0
    rw [start_cnt0, window_cnt0] at e0
    refine (toInt_eq_iff _ _ g.isLt).1 ?_
    have : (((ix1 g : S256.Idx) 0).val : Int) = (g.val : Int) := rfl
    rw [this] at e0; omega
  · intro hg a
    match a with
    | ⟨0, _⟩ =>
      show cntDims.start (ix1 n) idx 0 + (cntDims.window (ix1 n) 0 : Int) = (g.val : Int)
      rw [start_cnt0, window_cnt0, (toInt_eq_iff _ _ g.isLt).2 hg]; omega

theorem ofBits_one_f32 : Ideal.ofBits .f32 0x3F800000#32 = 1 := by
  simp [Ideal.ofBits, Ideal.ieee, -EReal.coe_mul]; norm_num

theorem sum_ix1 {M : Type*} [AddCommMonoid M] {n : Nat} (f : (⟨1, ![n]⟩ : Shape).Idx → M) :
    ∑ i, f i = ∑ a : Fin n, f (ix1 a) :=
  (Equiv.sum_comp (⟨fun i => i 0, ix1, fun i => (eq_ix1 i).symm, fun _ => rfl⟩ : (⟨1, ![n]⟩ : Shape).Idx ≃ Fin n).symm f).symm

theorem splat_apply {t : Shape} (hb : S_.BroadcastsInDim t ![]) (b : BitVec FTy.f32.bits) (j : t.Idx) :
    broadcastInDim t ![] hb (constant (F := Ideal) S_ .f32 b) j = Ideal.ofBits .f32 b := rfl

theorem scatter_sum_apply (h : FVec Ideal S100000x128 .f32) (idx : IVec S100000x1 32) (g : Fin 256) (d : Fin 128) :
    Host.scatterAdd sumDims (broadcastInDim S256x128 ![] bcast_S_S256x128 (constant (F := Ideal) S_ .f32 0x00000000#32)) idx h (ix2 g d)
      = poolSum h idx g.val d := by
  unfold Host.scatterAdd
  rw [Ideal.hostScatterAdd_def]
  unfold Ideal.hostScatterAdd
  rw [splat_apply, Ideal.ofBits_zero_f32, zero_add, Finset.sum_filter, sum_idx2]
  unfold poolSum
  refine Finset.sum_congr rfl fun n _ => ?_
  simp only [resultIdx?_sum]
  by_cases hg : inGraph idx n g.val
  · simp only [hg, true_and]
    rw [Finset.sum_ite_eq' Finset.univ d (fun b => h (ix2 n b)), if_pos (Finset.mem_univ d), if_pos trivial]
  · simp only [hg, false_and, if_false, Finset.sum_const_zero]

theorem scatter_cnt_apply (idx : IVec S100000x1 32) (g : Fin 256) :
    Host.scatterAdd cntDims (broadcastInDim S256 ![] bcast_S_S256 (constant (F := Ideal) S_ .f32 0x00000000#32)) idx
        (broadcastInDim S100000 ![] bcast_S_S100000 (constant (F := Ideal) S_ .f32 0x3F800000#32)) (ix1 g)
      = poolCnt idx g.val := by
  unfold Host.scatterAdd
  rw [Ideal.hostScatterAdd_def]
  unfold Ideal.hostScatterAdd
  rw [splat_apply, Ideal.ofBits_zero_f32, zero_add, Finset.sum_filter]
  unfold poolCnt
  rw [sum_ix1]
  refine Finset.sum_congr rfl fun n _ => ?_
  rw [splat_apply, ofBits_one_f32]
  simp only [resultIdx?_cnt]

abbrev dotDims := dot_S256x128_S128x1_S256x1_1_0_0_1_n_n

theorem pool_lhs0 (i : S256x1.Idx) (q : dotDims.contr.Idx) : (dotDims.lhsIdx i q 0).val = (i 0).val := by
  unfold DotDims.lhsIdx
  rw [dif_neg (show ¬(0 : Fin S256x128.rank) ∈ dotDims.lhsBatch by decide), dif_pos (show (0 : Fin S256x128.rank) ∈ dotDims.lhsNonContracting by decide)]
  rfl
theorem pool_lhs1 (i : S256x1.Idx) (q : dotDims.contr.Idx) : (dotDims.lhsIdx i q 1).val = (q ⟨0, by decide⟩).val :=
  dotDims.lhsIdx_val_of_single rfl i q
theorem pool_rhs0 (i : S256x1.Idx) (q : dotDims.contr.Idx) : (dotDims.rhsIdx i q 0).val = (q ⟨0, by decide⟩).val :=
  dotDims.rhsIdx_val_of_single rfl i q
theorem pool_rhs1 (i : S256x1.Idx) (q : dotDims.contr.Idx) : (dotDims.rhsIdx i q 1).val = (i 1).val := by
  unfold DotDims.rhsIdx
  rw [dif_neg (show ¬(1 : Fin S128x1.rank) ∈ dotDims.rhsBatch by decide), dif_pos (show (1 : Fin S128x1.rank) ∈ dotDims.rhsNonContracting by decide)]
  rfl

theorem hostDivf_apply {s : Shape} (a b : FVec Ideal s .f32) (i : s.Idx) : Host.divf a b i = Ideal.div (a i) (b i) := rfl

theorem den_apply (idx : IVec S100000x1 32) (g : Fin 256) (k : Fin 128) :
    broadcastInDim S256x128 ![0, 1] bcast_S256x1_S256x128_0_1 (broadcastInDim S256x1 ![0] bcast_S256_S256x1_0
      (maximumf (Host.scatterAdd cntDims (broadcastInDim S256 ![] bcast_S_S256 (constant (F := Ideal) S_ .f32 0x00000000#32)) idx
          (broadcastInDim S100000 ![] bcast_S_S100000 (constant (F := Ideal) S_ .f32 0x3F800000#32)))
        (broadcastInDim S256 ![] bcast_S_S256 (constant (F := Ideal) S_ .f32 0x3F800000#32)))) (ix2 g k)
      = max (poolCnt idx g.val) 1 := by
  refine (broadcastInDim_apply _ bcast_S256x1_S256x128_0_1 _ (ix2 g k) (ix2 g (0 : Fin 1)) (fun a => match a with
    | ⟨0, _⟩ => by show g.val = if (256 : Nat) = 1 then 0 else g.val; rw [if_neg (by decide)]
    | ⟨1, _⟩ => by show 0 = if (1 : Nat) = 1 then 0 else k.val; rw [if_pos rfl])).trans ?_
  refine (broadcastInDim_apply _ bcast_S256_S256x1_0 _ (ix2 g (0 : Fin 1)) (ix1 g) (fun a => match a with
    | ⟨0, _⟩ => by show g.val = if (256 : Nat) = 1 then 0 else g.val; rw [if_neg (by decide)])).trans ?_
  rw [maximumf_apply, scatter_cnt_apply, splat_apply, ofBits_one_f32]

end Pool

open Pool in

theorem ref_pool (h : FVec Ideal S100000x128 .f32) (idx : IVec S100000x1 32) (wfT : FVec Ideal S128x1 .f32) (bf : FVec Ideal S1x1 .f32) :
    addf (Host.dotGeneral dot_S256x128_S128x1_S256x1_1_0_0_1_n_n none
        (Host.divf
          (Host.scatterAdd scatter_S256x128_S100000x1_S100000x128_1_0_0_1 (broadcastInDim S256x128 ![] bcast_S_S256x128 (constant (F := Ideal) S_ .f32 0x00000000#32)) idx h)
          (broadcastInDim S256x128 ![0, 1] bcast_S256x1_S256x128_0_1 (broadcastInDim S256x1 ![0] bcast_S256_S256x1_0
            (maximumf (Host.scatterAdd scatter_S256_S100000x1_S100000_n_0_0_1 (broadcastInDim S256 ![] bcast_S_S256 (constant (F := Ideal) S_ .f32 0x00000000#32)) idx (broadcastInDim S100000 ![] bcast_S_S100000 (constant (F := Ideal) S_ .f32 0x3F800000#32)))
              (broadcastInDim S256 ![] bcast_S_S256 (constant (F := Ideal) S_ .f32 0x3F800000#32))))))
        wfT)
      (broadcastInDim S256x1 ![0, 1] bcast_S1x1_S256x1_0_1 bf)
    = (poolOut h idx wfT bf : S256x1.Idx → EReal) := by
  funext i
  obtain ⟨g, z, rfl⟩ : ∃ (g : Fin 256) (z : Fin 1), i = ix2 g z := ⟨i 0, i 1, eq_ix2 i⟩
  obtain rfl : z = 0 := Subsingleton.elim _ _
  rw [addf_apply]
  unfold poolOut
  refine congrArg₂ (· + ·) ?_ ?_
  · simp only [Host.dotGeneral]
    rw [Ideal.dotGeneral_apply, ← Equiv.sum_comp (contrEquiv1 dotDims 128 rfl rfl).symm]
    refine Finset.sum_congr rfl fun k _ => ?_
    have hk := contrEquiv1_symm_val dotDims 128 rfl rfl k
    have el : dotDims.lhsIdx (ix2 g (0 : Fin 1)) ((contrEquiv1 dotDims 128 rfl rfl).symm k) = ix2 g k := funext fun a => Fin.ext (by
      match a with
      | ⟨0, _⟩ => exact pool_lhs0 _ _
      | ⟨1, _⟩ => exact (pool_lhs1 _ _).trans hk)
    have er : dotDims.rhsIdx (ix2 g (0 : Fin 1)) ((contrEquiv1 dotDims 128 rfl rfl).symm k) = ix2 k (0 : Fin 1) := funext fun a => Fin.ext (by
      match a with
      | ⟨0, _⟩ => exact (pool_rhs0 _ _).trans hk
      | ⟨1, _⟩ => exact pool_rhs1 _ _)
    rw [el, er]
    refine congrArg (· * wfT (ix2 k (0 : Fin 1))) ?_
    rw [hostDivf_apply, scatter_sum_apply, den_apply]
  · exact broadcastInDim_apply _ bcast_S1x1_S256x1_0_1 bf (ix2 g (0 : Fin 1)) (ix2 (0 : Fin 1) (0 : Fin 1)) (fun a => match a with
      | ⟨0, _⟩ => by show 0 = if (1 : Nat) = 1 then 0 else g.val; rw [if_pos rfl]
      | ⟨1, _⟩ => by show 0 = if (1 : Nat) = 1 then 0 else 0; rw [if_pos rfl])

end Cert.ReferenceIdeal.RefValue
end
-- ==== Proof.RefSide.lean ====
import proofs.«419359_j12352325943372_2_alg».proof.Proof.Gen.ReferenceIdeal
import proofs.«419359_j12352325943372_2_alg».proof.Proof.Gen.ReferenceIdeal.Run
import proofs.«419359_j12352325943372_2_alg».proof.Proof.Gen.ReferenceIdeal.Read
import proofs.«419359_j12352325943372_2_alg».proof.Proof.Net
import proofs.«419359_j12352325943372_2_alg».proof.Proof.RefPool
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀ Cert.GraphNet

theorem dot_e64_apply (l : FVec Ideal S1600000x16 .f32) (r : FVec Ideal S16x64 .f32) (i : S1600000x64.Idx) :
    Host.dotGeneral dot_S1600000x16_S16x64_S1600000x64_1_0_0_1_n_n none l r i = ∑ k : Fin 16, l (ix2 (i 0) k) * r (ix2 k (i 1)) := by
  simp only [Host.dotGeneral]
  rw [Ideal.dotGeneral_apply, ← Equiv.sum_comp (ValueIdx.contrEquiv1 dot_S1600000x16_S16x64_S1600000x64_1_0_0_1_n_n 16 rfl rfl).symm]
  refine Finset.sum_congr rfl fun k _ => ?_
  have hk := ValueIdx.contrEquiv1_symm_val dot_S1600000x16_S16x64_S1600000x64_1_0_0_1_n_n 16 rfl rfl k
  have el : dot_S1600000x16_S16x64_S1600000x64_1_0_0_1_n_n.lhsIdx i ((ValueIdx.contrEquiv1 dot_S1600000x16_S16x64_S1600000x64_1_0_0_1_n_n 16 rfl rfl).symm k) = ix2 (i 0) k := funext fun a => Fin.ext (by
    match a with
    | ⟨0, _⟩ => exact Read.lhs_main_v12_0 _ _
    | ⟨1, _⟩ => exact (Read.lhs_main_v12_1 _ _).trans hk)
  have er : dot_S1600000x16_S16x64_S1600000x64_1_0_0_1_n_n.rhsIdx i ((ValueIdx.contrEquiv1 dot_S1600000x16_S16x64_S1600000x64_1_0_0_1_n_n 16 rfl rfl).symm k) = ix2 k (i 1) := funext fun a => Fin.ext (by
    match a with
    | ⟨0, _⟩ => exact (Read.rhs_main_v12_0 _ _).trans hk
    | ⟨1, _⟩ => exact Read.rhs_main_v12_1 _ _)
  rw [el, er]
  rfl

theorem dot_e128_apply (l : FVec Ideal S1600000x16 .f32) (r : FVec Ideal S16x128 .f32) (i : S1600000x128.Idx) :
    Host.dotGeneral dot_S1600000x16_S16x128_S1600000x128_1_0_0_1_n_n none l r i = ∑ k : Fin 16, l (ix2 (i 0) k) * r (ix2 k (i 1)) := by
  simp only [Host.dotGeneral]
  rw [Ideal.dotGeneral_apply, ← Equiv.sum_comp (ValueIdx.contrEquiv1 dot_S1600000x16_S16x128_S1600000x128_1_0_0_1_n_n 16 rfl rfl).symm]
  refine Finset.sum_congr rfl fun k _ => ?_
  have hk := ValueIdx.contrEquiv1_symm_val dot_S1600000x16_S16x128_S1600000x128_1_0_0_1_n_n 16 rfl rfl k
  have el : dot_S1600000x16_S16x128_S1600000x128_1_0_0_1_n_n.lhsIdx i ((ValueIdx.contrEquiv1 dot_S1600000x16_S16x128_S1600000x128_1_0_0_1_n_n 16 rfl rfl).symm k) = ix2 (i 0) k := funext fun a => Fin.ext (by
    match a with
    | ⟨0, _⟩ => exact Read.lhs_main_v42_0 _ _
    | ⟨1, _⟩ => exact (Read.lhs_main_v42_1 _ _).trans hk)
  have er : dot_S1600000x16_S16x128_S1600000x128_1_0_0_1_n_n.rhsIdx i ((ValueIdx.contrEquiv1 dot_S1600000x16_S16x128_S1600000x128_1_0_0_1_n_n 16 rfl rfl).symm k) = ix2 k (i 1) := funext fun a => Fin.ext (by
    match a with
    | ⟨0, _⟩ => exact (Read.rhs_main_v42_0 _ _).trans hk
    | ⟨1, _⟩ => exact Read.rhs_main_v42_1 _ _)
  rw [el, er]
  rfl

theorem dot_n64_apply (l : FVec Ideal S100000x64 .f32) (r : FVec Ideal S64x128 .f32) (i : S100000x128.Idx) :
    Host.dotGeneral dot_S100000x64_S64x128_S100000x128_1_0_0_1_n_n none l r i = ∑ k : Fin 64, l (ix2 (i 0) k) * r (ix2 k (i 1)) := by
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx i ((ValueIdx.contrEquiv1 dot_S100000x64_S64x128_S100000x128_1_0_0_1_n_n 64 rfl rfl).symm k) = ix2 (i 0) k := funext fun a => Fin.ext (by
    match a with
    | ⟨0, _⟩ => exact Read.lhs_main_v23_0 _ _
    | ⟨1, _⟩ => exact (Read.lhs_main_v23_1 _ _).trans hk)
  have er : dot_S100000x64_S64x128_S100000x128_1_0_0_1_n_n.rhsIdx i ((ValueIdx.contrEquiv1 dot_S100000x64_S64x128_S100000x128_1_0_0_1_n_n 64 rfl rfl).symm k) = ix2 k (i 1) := funext fun a => Fin.ext (by
    match a with
    | ⟨0, _⟩ => exact (Read.rhs_main_v23_0 _ _).trans hk
    | ⟨1, _⟩ => exact Read.rhs_main_v23_1 _ _)
  rw [el, er]
  rfl

theorem dot_n128_apply (l : FVec Ideal S100000x128 .f32) (r : FVec Ideal S128x128 .f32) (i : S100000x128.Idx) :
    Host.dotGeneral dot_S100000x128_S128x128_S100000x128_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k := funext fun a => Fin.ext (by
    match a with
    | ⟨0, _⟩ => exact Read.lhs_main_v29_0 _ _
    | ⟨1, _⟩ => exact (Read.lhs_main_v29_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) := funext fun a => Fin.ext (by
    match a with
    | ⟨0, _⟩ => exact (Read.rhs_main_v29_0 _ _).trans hk
    | ⟨1, _⟩ => exact Read.rhs_main_v29_1 _ _)
  rw [el, er]
  rfl

theorem row_e64_apply (b : FVec Ideal S1x64 .f32) (i : S1600000x64.Idx) :
    broadcastInDim S1600000x64 ![0, 1] bcast_S1x64_S1600000x64_0_1 b i = b (ix2 0 (i 1)) :=
  broadcastInDim_apply _ bcast_S1x64_S1600000x64_0_1 b i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

theorem row_e128_apply (b : FVec Ideal S1x128 .f32) (i : S1600000x128.Idx) :
    broadcastInDim S1600000x128 ![0, 1] bcast_S1x128_S1600000x128_0_1 b i = b (ix2 0 (i 1)) :=
  broadcastInDim_apply _ bcast_S1x128_S1600000x128_0_1 b i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem row_n128_apply (b : FVec Ideal S1x128 .f32) (i : S100000x128.Idx) :
    broadcastInDim S100000x128 ![0, 1] bcast_S1x128_S100000x128_0_1 b i = b (ix2 0 (i 1)) :=
  broadcastInDim_apply _ bcast_S1x128_S100000x128_0_1 b i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem zero_e64_apply (i : S1600000x64.Idx) :
    broadcastInDim S1600000x64 ![] bcast_S_S1600000x64 (constant (F := Ideal) S_ .f32 0x00000000#32) i = (0 : EReal) := by
  rw [broadcastInDim_apply _ bcast_S_S1600000x64 (constant (F := Ideal) S_ .f32 0x00000000#32) i ix0 (fun a => a.elim0), constant_apply]
  exact Ideal.ofBits_zero_f32

theorem zero_e128_apply (i : S1600000x128.Idx) :
    broadcastInDim S1600000x128 ![] bcast_S_S1600000x128 (constant (F := Ideal) S_ .f32 0x00000000#32) i = (0 : EReal) := by
  rw [broadcastInDim_apply _ bcast_S_S1600000x128 (constant (F := Ideal) S_ .f32 0x00000000#32) i ix0 (fun a => a.elim0), constant_apply]
  exact Ideal.ofBits_zero_f32

theorem zero_n128_apply (i : S100000x128.Idx) :
    broadcastInDim S100000x128 ![] bcast_S_S100000x128 (constant (F := Ideal) S_ .f32 0x00000000#32) i = (0 : EReal) := by
  rw [broadcastInDim_apply _ bcast_S_S100000x128 (constant (F := Ideal) S_ .f32 0x00000000#32) i ix0 (fun a => a.elim0), constant_apply]
  exact Ideal.ofBits_zero_f32

theorem ref_edge64 (xs : FVec Ideal S1600000x64 .f32) (ea : FVec Ideal S1600000x16 .f32) (ewT : FVec Ideal S16x64 .f32) (eb : FVec Ideal S1x64 .f32) :
    maximumf (addf (addf xs (Host.dotGeneral dot_S1600000x16_S16x64_S1600000x64_1_0_0_1_n_n none ea ewT)) (broadcastInDim S1600000x64 ![0, 1] bcast_S1x64_S1600000x64_0_1 eb)) (broadcastInDim S1600000x64 ![] bcast_S_S1600000x64 (constant S_ .f32 0x00000000#32)) = (edgeMsg xs ea ewT eb : S1600000x64.Idx → EReal) := by
  funext i
  rw [maximumf_apply, addf_apply, addf_apply, dot_e64_apply, row_e64_apply, zero_e64_apply]
  rfl

theorem ref_edge128 (xs : FVec Ideal S1600000x128 .f32) (ea : FVec Ideal S1600000x16 .f32) (ewT : FVec Ideal S16x128 .f32) (eb : FVec Ideal S1x128 .f32) :
    maximumf (addf (addf xs (Host.dotGeneral dot_S1600000x16_S16x128_S1600000x128_1_0_0_1_n_n none ea ewT)) (broadcastInDim S1600000x128 ![0, 1] bcast_S1x128_S1600000x128_0_1 eb)) (broadcastInDim S1600000x128 ![] bcast_S_S1600000x128 (constant S_ .f32 0x00000000#32)) = (edgeMsg xs ea ewT eb : S1600000x128.Idx → EReal) := by
  funext i
  rw [maximumf_apply, addf_apply, addf_apply, dot_e128_apply, row_e128_apply, zero_e128_apply]
  rfl

theorem ref_hidden64 (x aggr : FVec Ideal S100000x64 .f32) (waT : FVec Ideal S64x128 .f32) (ba : FVec Ideal S1x128 .f32) :
    maximumf (addf (Host.dotGeneral dot_S100000x64_S64x128_S100000x128_1_0_0_1_n_n none (addf x aggr) waT) (broadcastInDim S100000x128 ![0, 1] bcast_S1x128_S100000x128_0_1 ba)) (broadcastInDim S100000x128 ![] bcast_S_S100000x128 (constant S_ .f32 0x00000000#32)) = (nodeHidden x aggr waT ba : S100000x128.Idx → EReal) := by
  funext i
  rw [maximumf_apply, addf_apply, dot_n64_apply, row_n128_apply, zero_n128_apply]
  rfl

theorem ref_hidden128 (x aggr : FVec Ideal S100000x128 .f32) (waT : FVec Ideal S128x128 .f32) (ba : FVec Ideal S1x128 .f32) :
    maximumf (addf (Host.dotGeneral dot_S100000x128_S128x128_S100000x128_1_0_0_1_n_n none (addf x aggr) waT) (broadcastInDim S100000x128 ![0, 1] bcast_S1x128_S100000x128_0_1 ba)) (broadcastInDim S100000x128 ![] bcast_S_S100000x128 (constant S_ .f32 0x00000000#32)) = (nodeHidden x aggr waT ba : S100000x128.Idx → EReal) := by
  funext i
  rw [maximumf_apply, addf_apply, dot_n128_apply, row_n128_apply, zero_n128_apply]
  rfl

theorem ref_node64 (x aggr : FVec Ideal S100000x64 .f32) (waT : FVec Ideal S64x128 .f32) (ba : FVec Ideal S1x128 .f32) (wbT : FVec Ideal S128x128 .f32) (bb : FVec Ideal S1x128 .f32) :
    maximumf (addf (Host.dotGeneral dot_S100000x128_S128x128_S100000x128_1_0_0_1_n_n none (maximumf (addf (Host.dotGeneral dot_S100000x64_S64x128_S100000x128_1_0_0_1_n_n none (addf x aggr) waT) (broadcastInDim S100000x128 ![0, 1] bcast_S1x128_S100000x128_0_1 ba)) (broadcastInDim S100000x128 ![] bcast_S_S100000x128 (constant S_ .f32 0x00000000#32))) wbT) (broadcastInDim S100000x128 ![0, 1] bcast_S1x128_S100000x128_0_1 bb)) (broadcastInDim S100000x128 ![] bcast_S_S100000x128 (constant S_ .f32 0x00000000#32)) = (nodeUpd x aggr waT ba wbT bb : S100000x128.Idx → EReal) := by
  rw [ref_hidden64]
  generalize hH : (nodeHidden x aggr waT ba : S100000x128.Idx → EReal) = H
  funext i
  rw [maximumf_apply, addf_apply, dot_n128_apply, row_n128_apply, zero_n128_apply]
  unfold nodeUpd
  rw [hH]

theorem ref_node128 (x aggr : FVec Ideal S100000x128 .f32) (waT : FVec Ideal S128x128 .f32) (ba : FVec Ideal S1x128 .f32) (wbT : FVec Ideal S128x128 .f32) (bb : FVec Ideal S1x128 .f32) :
    maximumf (addf (Host.dotGeneral dot_S100000x128_S128x128_S100000x128_1_0_0_1_n_n none (maximumf (addf (Host.dotGeneral dot_S100000x128_S128x128_S100000x128_1_0_0_1_n_n none (addf x aggr) waT) (broadcastInDim S100000x128 ![0, 1] bcast_S1x128_S100000x128_0_1 ba)) (broadcastInDim S100000x128 ![] bcast_S_S100000x128 (constant S_ .f32 0x00000000#32))) wbT) (broadcastInDim S100000x128 ![0, 1] bcast_S1x128_S100000x128_0_1 bb)) (broadcastInDim S100000x128 ![] bcast_S_S100000x128 (constant S_ .f32 0x00000000#32)) = (nodeUpd x aggr waT ba wbT bb : S100000x128.Idx → EReal) := by
  rw [ref_hidden128]
  generalize hH : (nodeHidden x aggr waT ba : S100000x128.Idx → EReal) = H
  funext i
  rw [maximumf_apply, addf_apply, dot_n128_apply, row_n128_apply, zero_n128_apply]
  unfold nodeUpd
  rw [hH]

theorem ref_net (a0 : FVec Ideal S100000x64 .f32) (a1 : IVec S2x1600000 32) (a2 : FVec Ideal S1600000x16 .f32) (a3 : IVec S100000 32) (a4 : FVec Ideal S64x16 .f32) (a5 : FVec Ideal S64 .f32) (a6 : FVec Ideal S128x64 .f32) (a7 : FVec Ideal S128 .f32) (a8 : FVec Ideal S128x128 .f32) (a9 : FVec Ideal S128 .f32) (a10 : FVec Ideal S128x16 .f32) (a11 : FVec Ideal S128 .f32) (a12 : FVec Ideal S128x128 .f32) (a13 : FVec Ideal S128 .f32) (a14 : FVec Ideal S128x128 .f32) (a15 : FVec Ideal S128 .f32) (a16 : FVec Ideal S1x128 .f32) (a17 : FVec Ideal S1 .f32) :
    (addf (Host.dotGeneral dot_S256x128_S128x1_S256x1_1_0_0_1_n_n none (Host.divf (Host.scatterAdd scatter_S256x128_S100000x1_S100000x128_1_0_0_1 (broadcastInDim S256x128 ![] bcast_S_S256x128 (constant S_ .f32 0x00000000#32)) (broadcastInDim S100000x1 ![0] bcast_S100000_S100000x1_0 a3) (maximumf (addf (Host.dotGeneral dot_S100000x128_S128x128_S100000x128_1_0_0_1_n_n none (maximumf (addf (Host.dotGeneral dot_S100000x128_S128x128_S100000x128_1_0_0_1_n_n none (addf (maximumf (addf (Host.dotGeneral dot_S100000x128_S128x128_S100000x128_1_0_0_1_n_n none (maximumf (addf (Host.dotGeneral dot_S100000x64_S64x128_S100000x128_1_0_0_1_n_n none (addf a0 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (maximumf (addf (addf (Host.gather gather_S100000x64_S1600000x1_S1600000x64_1_0_n_n_0_1_164 a0 (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))) (Host.dotGeneral dot_S1600000x16_S16x64_S1600000x64_1_0_0_1_n_n none a2 (transpose S16x64 [1, 0] a4 transposes_S64x16_S16x64_1_0))) (broadcastInDim S1600000x64 ![0, 1] bcast_S1x64_S1600000x64_0_1 (broadcastInDim S1x64 ![1] bcast_S64_S1x64_1 a5))) (broadcastInDim S1600000x64 ![] bcast_S_S1600000x64 (constant S_ .f32 0x00000000#32))))) (transpose S64x128 [1, 0] a6 transposes_S128x64_S64x128_1_0)) (broadcastInDim S100000x128 ![0, 1] bcast_S1x128_S100000x128_0_1 (broadcastInDim S1x128 ![1] bcast_S128_S1x128_1 a7))) (broadcastInDim S100000x128 ![] bcast_S_S100000x128 (constant S_ .f32 0x00000000#32))) (transpose S128x128 [1, 0] a8 transposes_S128x128_S128x128_1_0)) (broadcastInDim S100000x128 ![0, 1] bcast_S1x128_S100000x128_0_1 (broadcastInDim S1x128 ![1] bcast_S128_S1x128_1 a9))) (broadcastInDim S100000x128 ![] bcast_S_S100000x128 (constant S_ .f32 0x00000000#32))) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (maximumf (addf (addf (Host.gather gather_S100000x128_S1600000x1_S1600000x128_1_0_n_n_0_1_1128 (maximumf (addf (Host.dotGeneral dot_S100000x128_S128x128_S100000x128_1_0_0_1_n_n none (maximumf (addf (Host.dotGeneral dot_S100000x64_S64x128_S100000x128_1_0_0_1_n_n none (addf a0 (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (maximumf (addf (addf (Host.gather gather_S100000x64_S1600000x1_S1600000x64_1_0_n_n_0_1_164 a0 (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))) (Host.dotGeneral dot_S1600000x16_S16x64_S1600000x64_1_0_0_1_n_n none a2 (transpose S16x64 [1, 0] a4 transposes_S64x16_S16x64_1_0))) (broadcastInDim S1600000x64 ![0, 1] bcast_S1x64_S1600000x64_0_1 (broadcastInDim S1x64 ![1] bcast_S64_S1x64_1 a5))) (broadcastInDim S1600000x64 ![] bcast_S_S1600000x64 (constant S_ .f32 0x00000000#32))))) (transpose S64x128 [1, 0] a6 transposes_S128x64_S64x128_1_0)) (broadcastInDim S100000x128 ![0, 1] bcast_S1x128_S100000x128_0_1 (broadcastInDim S1x128 ![1] bcast_S128_S1x128_1 a7))) (broadcastInDim S100000x128 ![] bcast_S_S100000x128 (constant S_ .f32 0x00000000#32))) (transpose S128x128 [1, 0] a8 transposes_S128x128_S128x128_1_0)) (broadcastInDim S100000x128 ![0, 1] bcast_S1x128_S100000x128_0_1 (broadcastInDim S1x128 ![1] bcast_S128_S1x128_1 a9))) (broadcastInDim S100000x128 ![] bcast_S_S100000x128 (constant S_ .f32 0x00000000#32))) (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))) (Host.dotGeneral dot_S1600000x16_S16x128_S1600000x128_1_0_0_1_n_n none a2 (transpose S16x128 [1, 0] a10 transposes_S128x16_S16x128_1_0))) (broadcastInDim S1600000x128 ![0, 1] bcast_S1x128_S1600000x128_0_1 (broadcastInDim S1x128 ![1] bcast_S128_S1x128_1 a11))) (broadcastInDim S1600000x128 ![] bcast_S_S1600000x128 (constant S_ .f32 0x00000000#32))))) (transpose S128x128 [1, 0] a12 transposes_S128x128_S128x128_1_0)) (broadcastInDim S100000x128 ![0, 1] bcast_S1x128_S100000x128_0_1 (broadcastInDim S1x128 ![1] bcast_S128_S1x128_1 a13))) (broadcastInDim S100000x128 ![] bcast_S_S100000x128 (constant S_ .f32 0x00000000#32))) (transpose S128x128 [1, 0] a14 transposes_S128x128_S128x128_1_0)) (broadcastInDim S100000x128 ![0, 1] bcast_S1x128_S100000x128_0_1 (broadcastInDim S1x128 ![1] bcast_S128_S1x128_1 a15))) (broadcastInDim S100000x128 ![] bcast_S_S100000x128 (constant S_ .f32 0x00000000#32)))) (broadcastInDim S256x128 ![0, 1] bcast_S256x1_S256x128_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 a3) (broadcastInDim S100000 ![] bcast_S_S100000 (constant S_ .f32 0x3F800000#32))) (broadcastInDim S256 ![] bcast_S_S256 (constant S_ .f32 0x3F800000#32)))))) (transpose S128x1 [1, 0] a16 transposes_S1x128_S128x1_1_0)) (broadcastInDim S256x1 ![0, 1] bcast_S1x1_S256x1_0_1 (broadcastInDim S1x1 ![1] bcast_S1_S1x1_1 a17)) : FVec Ideal S256x1 .f32)
      = net a0 a1 a2 a3 a4 a5 a6 a7 a8 a9 a10 a11 a12 a13 a14 a15 a16 a17 := by
  unfold net h2 h1 msg2 msg1 aggr128 aggr64 srcIdx dstIdx edgeRow0 edgeRow1
  rw [← ref_pool, ← ref_node128, ← ref_edge128, ← ref_node64, ← ref_edge64]

theorem ref_eq (m : (ℓ : Loc nD τ sig) → Buf (Elt Ideal) ℓ) (c : Dev nD) :
    Cert.ReferenceIdeal.Value.res_main_v80 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.Value.res_main_v80
  exact ref_net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

end Cert.ReferenceIdeal.RefValue

end
-- ==== Proof.lean ====
import proofs.«419359_j12352325943372_2_alg».proof.Defs
import proofs.«419359_j12352325943372_2_alg».proof.Proof.Gen.Kernel
import proofs.«419359_j12352325943372_2_alg».proof.Proof.Gen.KernelIdeal
import proofs.«419359_j12352325943372_2_alg».proof.Proof.Gen.ReferenceIdeal
import proofs.«419359_j12352325943372_2_alg».proof.Proof.Gen.Pre_finite_inputs
import proofs.«419359_j12352325943372_2_alg».proof.Proof.Gen.ReferenceIdeal.Run
import proofs.«419359_j12352325943372_2_alg».proof.Proof.K.Run
import proofs.«419359_j12352325943372_2_alg».proof.Proof.KI.Run
import proofs.«419359_j12352325943372_2_alg».proof.Proof.Assemble
import proofs.«419359_j12352325943372_2_alg».proof.Proof.RefSide

noncomputable section

namespace Cert.Proof

open Idealize.ShloMosaic Idealize.ShloMosaic.TcCoe Idealize.SL.Sem

/-- No item of the program writes an argument array, so each ends as launched. -/
theorem frame_k : Cert.frame_Kernel := fun m ρ _ =>
  (θ_run Cert.Kernel.defs _ _).mono (fun r h c => by
    refine ⟨?_, ?_, ?_, ?_, ?_, ?_, ?_, ?_, ?_, ?_, ?_, ?_, ?_, ?_, ?_, ?_, ?_, ?_⟩ <;> exact Cert.Kernel.Frame.end_kept m ρ c r.2.mem (h c) _ (by decide))
    (Cert.Kernel.Frame.run_all (F := Bits) m ρ)

theorem frame_ki : Cert.frame_KernelIdeal := fun m ρ _ =>
  (θ_run Cert.KernelIdeal.defs _ _).mono (fun r h c => by
    refine ⟨?_, ?_, ?_, ?_, ?_, ?_, ?_, ?_, ?_, ?_, ?_, ?_, ?_, ?_, ?_, ?_, ?_, ?_⟩ <;> exact Cert.KernelIdeal.Frame.end_kept m ρ c r.2.mem (h c) _ (by decide))
    (Cert.KernelIdeal.Frame.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result buffers end at the network function of the (agreeing) argument arrays. -/
theorem algebraic : Cert.algebraic_KernelIdeal_ReferenceIdeal := by
  intro m ρ m' ρ' _ hagree
  refine ⟨fun c => Cert.KernelIdeal.Val.netAt m c, ?_, ?_⟩
  · refine (θ_run Cert.KernelIdeal.defs _ _).mono (fun r h c => ?_) (Cert.KernelIdeal.Frame.run_all (F := Ideal) m ρ)
    refine ⟨(h c _ (Cert.KernelIdeal.Frame.mem_uc Cert.KernelIdeal.main_v47 (by decide))).trans (Cert.KernelIdeal.Val.kernel_value m ρ c), ?_, ?_, ?_, ?_, ?_, ?_, ?_, ?_, ?_, ?_, ?_, ?_, ?_, ?_, ?_, ?_, ?_, ?_⟩ <;>
      exact Cert.KernelIdeal.Frame.end_kept m ρ c r.2.mem (h c) _ (by decide)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.RefValue.ref_eq m' c, h0, h1, h2, h3, h4, h5, h6, h7, h8, h9, h10, h11, h12, h13, h14, h15, h16, h17]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
